-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg4 : FVec F S64 .f32) (main_arg5 : IVec S600000 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S600000 32 := broadcastInDim S600000 ![] bcast_S_S600000 main_c_8
  let main_v25 : IVec S600000 1 := cmpi .sge main_arg5 main_v24
  let main_c_9 : IVec S_ 1 := constantI S_ 1 1#1
  let main_v26 : IVec S_ 1 := (fun x v => Host.reduce IntOp.andi x v reducesTo_S600000_S_d0 h_S_) main_v25 main_c_9
  let main_v27 : IVec S_ 1 := andi main_v23 main_v26
  let main_c_10 : IVec S_ 32 := constantI S_ 32 50000#32
  let main_v28 : IVec S600000 32 := broadcastInDim S600000 ![] bcast_S_S600000 main_c_10
  let main_v29 : IVec S600000 1 := cmpi .slt main_arg5 main_v28
  let main_c_11 : IVec S_ 1 := constantI S_ 1 1#1
  let main_v30 : IVec S_ 1 := (fun x v => Host.reduce IntOp.andi x v reducesTo_S600000_S_d0 h_S_) main_v29 main_c_11
  let main_v31 : IVec S_ 1 := andi main_v27 main_v30
  main_v31

def fn {F : FTy → Type} [FloatOps F] (main_arg0 : FVec F S50000x128 .f32) (main_arg1 : FVec F S128x128 .f32) (main_arg2 : FVec F S128 .f32) (main_arg3 : FVec F S128x64 .f32) (main_arg4 : FVec F S64 .f32) (main_arg5 : IVec S600000 32) (main_arg6 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S5000x128 : Shape := ⟨2, ![5000, 128]⟩
abbrev S5000x1 : Shape := ⟨2, ![5000, 1]⟩
abbrev S600000x128 : Shape := ⟨2, ![600000, 128]⟩
abbrev S1000x128 : Shape := ⟨2, ![1000, 128]⟩
abbrev S2400x1 : Shape := ⟨2, ![2400, 1]⟩
abbrev S2400x128 : Shape := ⟨2, ![2400, 128]⟩
abbrev S1x1000 : Shape := ⟨2, ![1, 1000]⟩
abbrev S2400x1000 : Shape := ⟨2, ![2400, 1000]⟩
abbrev S1x128 : Shape := ⟨2, ![1, 128]⟩
abbrev S1000x1 : Shape := ⟨2, ![1000, 1]⟩
abbrev S50000x64 : Shape := ⟨2, ![50000, 64]⟩
abbrev S5000x64 : Shape := ⟨2, ![5000, 64]⟩
abbrev S600000x64 : Shape := ⟨2, ![600000, 64]⟩
abbrev S1000x64 : Shape := ⟨2, ![1000, 64]⟩
abbrev S2400x64 : Shape := ⟨2, ![2400, 64]⟩
abbrev S1x64 : Shape := ⟨2, ![1, 64]⟩

abbrev nBuf : Space → Nat
  | .hbm => 43
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S600000, .i32⟩
  | .hbm, ⟨6, _⟩ => ⟨S600000, .i32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S600000x1, .i32⟩
  | .hbm, ⟨34, _⟩ => ⟨S600000x1, .i32⟩
  | .hbm, ⟨35, _⟩ => ⟨S50000x128, .f32⟩
  | .hbm, ⟨36, _⟩ => ⟨S600000x128, .bf16⟩
  | .hbm, ⟨37, _⟩ => ⟨S1x128, .f32⟩
  | .hbm, ⟨38, _⟩ => ⟨S50000x128, .f32⟩
  | .hbm, ⟨39, _⟩ => ⟨S50000x64, .f32⟩
  | .hbm, ⟨40, _⟩ => ⟨S600000x64, .bf16⟩
  | .hbm, ⟨41, _⟩ => ⟨S1x64, .f32⟩
  | .hbm, ⟨42, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S1000x128, .f32⟩
  | .local _ .vmem, ⟨8, _⟩ => ⟨S1000x128, .f32⟩
  | .local _ .vmem, ⟨9, _⟩ => ⟨S2400x1, .i32⟩
  | .local _ .vmem, ⟨10, _⟩ => ⟨S2400x1, .i32⟩
  | .local _ .vmem, ⟨11, _⟩ => ⟨S2400x128, .bf16⟩
  | .local _ .vmem, ⟨12, _⟩ => ⟨S2400x128, .bf16⟩
  | .local _ .vmem, ⟨13, _⟩ => ⟨S2400x128, .f32⟩
  | .local _ .vmem, ⟨14, _⟩ => ⟨S2400x128, .bf16⟩
  | .local _ .vmem, ⟨15, _⟩ => ⟨S2400x128, .bf16⟩
  | .local _ .vmem, ⟨16, _⟩ => ⟨S2400x1, .i32⟩
  | .local _ .vmem, ⟨17, _⟩ => ⟨S2400x1, .i32⟩
  | .local _ .vmem, ⟨18, _⟩ => ⟨S1000x1, .f32⟩
  | .local _ .vmem, ⟨19, _⟩ => ⟨S1000x1, .f32⟩
  | .local _ .vmem, ⟨20, _⟩ => ⟨S1x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x64, .f32⟩
  | .local _ .vmem, ⟨29, _⟩ => ⟨S5000x64, .f32⟩
  | .local _ .vmem, ⟨30, _⟩ => ⟨S5000x64, .f32⟩
  | .local _ .vmem, ⟨31, _⟩ => ⟨S1000x64, .f32⟩
  | .local _ .vmem, ⟨32, _⟩ => ⟨S1000x64, .f32⟩
  | .local _ .vmem, ⟨33, _⟩ => ⟨S2400x1, .i32⟩
  | .local _ .vmem, ⟨34, _⟩ => ⟨S2400x1, .i32⟩
  | .local _ .vmem, ⟨35, _⟩ => ⟨S2400x64, .bf16⟩
  | .local _ .vmem, ⟨36, _⟩ => ⟨S2400x64, .bf16⟩
  | .local _ .vmem, ⟨37, _⟩ => ⟨S2400x64, .f32⟩
  | .local _ .vmem, ⟨38, _⟩ => ⟨S2400x64, .bf16⟩
  | .local _ .vmem, ⟨39, _⟩ => ⟨S2400x64, .bf16⟩
  | .local _ .vmem, ⟨40, _⟩ => ⟨S2400x1, .i32⟩
  | .local _ .vmem, ⟨41, _⟩ => ⟨S2400x1, .i32⟩
  | .local _ .vmem, ⟨42, _⟩ => ⟨S1000x1, .f32⟩
  | .local _ .vmem, ⟨43, _⟩ => ⟨S1000x1, .f32⟩
  | .local _ .vmem, ⟨44, _⟩ => ⟨S1x64, .f32⟩
  | .local _ .vmem, ⟨45, _⟩ => ⟨S1000x64, .f32⟩
  | .local _ .vmem, ⟨46, _⟩ => ⟨S1000x64, .f32⟩
  | .local _ .vmem, ⟨47, _⟩ => ⟨S1000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_scratch0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg4_1 : Ref sig .tc := ⟨.vmem, 46, rfl⟩
abbrev cc5_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem4_0 : DmaSem sig := 42
abbrev cc5_sem4_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![250, 50], ![false, false]⟩

def k1_cond2 (i : grid1.Coords) : BitVec 1 :=
  let arg1 : BitVec 32 := BitVec.ofNat 32 (i 1).val
  let c49_i32 : BitVec 32 := 49#32
  let v24 : BitVec 1 := Scalar.cmpi .eq arg1 c49_i32
  let v25 : BitVec 32 := Scalar.extui v24
  let c0_i32_8 : BitVec 32 := 0#32
  let v26 : BitVec 1 := Scalar.cmpi .ne v25 c0_i32_8
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2400x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2400x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![50, 250], ![false, false]⟩

def k2_cond2 (i : grid2.Coords) : BitVec 1 :=
  let arg1 : BitVec 32 := BitVec.ofNat 32 (i 1).val
  let c249_i32 : BitVec 32 := 249#32
  let v23 : BitVec 1 := Scalar.cmpi .eq arg1 c249_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2400x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2400x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![250, 50], ![false, false]⟩

def k4_cond2 (i : grid4.Coords) : BitVec 1 :=
  let arg1 : BitVec 32 := BitVec.ofNat 32 (i 1).val
  let c49_i32 : BitVec 32 := 49#32
  let v24 : BitVec 1 := Scalar.cmpi .eq arg1 c49_i32
  let v25 : BitVec 32 := Scalar.extui v24
  let c0_i32_8 : BitVec 32 := 0#32
  let v26 : BitVec 1 := Scalar.cmpi .ne v25 c0_i32_8
  v26

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2400x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2400x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![50, 250], ![false, false]⟩

def k5_cond2 (i : grid5.Coords) : BitVec 1 :=
  let arg1 : BitVec 32 := BitVec.ofNat 32 (i 1).val
  let c249_i32 : BitVec 32 := 249#32
  let v23 : BitVec 1 := Scalar.cmpi .eq arg1 c249_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2400x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2400x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S1000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  shapeCasts_S600000_S600000x1 : S600000.ShapeCasts S600000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2400x128_S2400x128_0_0 : ∀ a, (![0, 0] : Fin 2 → Nat) a + S2400x128.size a ≤ S2400x128.size a
  h_S2400x128 : 0 < S2400x128.numel
  shapeCasts_S2400x128_S2400x128 : S2400x128.ShapeCasts S2400x128
  iota_S1x1000_d1_w32 : S1x1000.Iotas .tc 32 [1]
  inb_S2400x1_S2400x1_0_0 : ∀ a, (![0, 0] : Fin 2 → Nat) a + S2400x1.size a ≤ S2400x1.size a
  h_S2400x1 : 0 < S2400x1.numel
  shapeCasts_S2400x1_S2400x1 : S2400x1.ShapeCasts S2400x1
  broadcasts_S2400x1_S2400x1000 : S2400x1.Broadcasts S2400x1000
  broadcasts_S1x1000_S2400x1000 : S1x1000.Broadcasts S2400x1000
  natLt_1_32 : 1 < 32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  packedbf16_S2400x128_S2400x128_0_0 : (Rect.unit (s := S2400x128) ![0, 0] S2400x128.size inb_S2400x128_S2400x128_0_0).PackedRows (EltTy.packing .bf16)
  shapeCasts_S128_S1x128 : S128.ShapeCasts S1x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  inb_S2400x64_S2400x64_0_0 : ∀ a, (![0, 0] : Fin 2 → Nat) a + S2400x64.size a ≤ S2400x64.size a
  h_S2400x64 : 0 < S2400x64.numel
  shapeCasts_S2400x64_S2400x64 : S2400x64.ShapeCasts S2400x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  packedbf16_S2400x64_S2400x64_0_0 : (Rect.unit (s := S2400x64) ![0, 0] S2400x64.size inb_S2400x64_S2400x64_0_0).PackedRows (EltTy.packing .bf16)
  shapeCasts_S64_S1x64 : S64.ShapeCasts S1x64
  broadcasts_S1000x1_S1000x64 : S1000x1.Broadcasts S1000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  dot_S2400x1000_S1000x128_S2400x128_1_0_0_1_n_n_wf : DotDims.WF S2400x1000 S1000x128 S2400x128 [1] [0] [0] [1] [] []
  dot_S2400x1000_S2400x128_S1000x128_0_0_1_1_n_n_wf : DotDims.WF S2400x1000 S2400x128 S1000x128 [0] [0] [1] [1] [] []
  dot_S5000x128_S128x64_S5000x64_1_0_0_1_n_n_wf : DotDims.WF S5000x128 S128x64 S5000x64 [1] [0] [0] [1] [] []
  dot_S2400x1000_S1000x64_S2400x64_1_0_0_1_n_n_wf : DotDims.WF S2400x1000 S1000x64 S2400x64 [1] [0] [0] [1] [] []
  dot_S2400x1000_S2400x64_S1000x64_0_0_1_1_n_n_wf : DotDims.WF S2400x1000 S2400x64 S1000x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2400x1.size a ≤ S600000x1.size a
  hwx1_1 : ∀ i : grid1.Coords, EltTy.bits .i32 = 32 ∨ (Rect.block (s := S600000x1) S2400x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2400x128.size a ≤ S600000x128.size a
  hwx1_2 : ∀ i : grid1.Coords, EltTy.bits .bf16 = 32 ∨ (Rect.block (s := S600000x128) S2400x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2400x128.size a ≤ S600000x128.size a
  hwx2_0 : ∀ i : grid2.Coords, EltTy.bits .bf16 = 32 ∨ (Rect.block (s := S600000x128) S2400x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2400x1.size a ≤ S600000x1.size a
  hwx2_1 : ∀ i : grid2.Coords, EltTy.bits .i32 = 32 ∨ (Rect.block (s := S600000x1) S2400x1.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S50000x1.size a
  hwx2_2 : ∀ i : grid2.Coords, EltTy.bits .f32 = 32 ∨ (Rect.block (s := S50000x1) S1000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S50000x128.size a
  hwx2_4 : ∀ i : grid2.Coords, EltTy.bits .f32 = 32 ∨ (Rect.block (s := S50000x128) S1000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S50000x64.size a
  hwx4_0 : ∀ i : grid4.Coords, EltTy.bits .f32 = 32 ∨ (Rect.block (s := S50000x64) S1000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2400x1.size a ≤ S600000x1.size a
  hwx4_1 : ∀ i : grid4.Coords, EltTy.bits .i32 = 32 ∨ (Rect.block (s := S600000x1) S2400x1.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2400x64.size a ≤ S600000x64.size a
  hwx4_2 : ∀ i : grid4.Coords, EltTy.bits .bf16 = 32 ∨ (Rect.block (s := S600000x64) S2400x64.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2400x64.size a ≤ S600000x64.size a
  hwx5_0 : ∀ i : grid5.Coords, EltTy.bits .bf16 = 32 ∨ (Rect.block (s := S600000x64) S2400x64.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2400x1.size a ≤ S600000x1.size a
  hwx5_1 : ∀ i : grid5.Coords, EltTy.bits .i32 = 32 ∨ (Rect.block (s := S600000x1) S2400x1.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x1.size a ≤ S50000x1.size a
  hwx5_2 : ∀ i : grid5.Coords, EltTy.bits .f32 = 32 ∨ (Rect.block (s := S50000x1) S1000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x64.size a ≤ S50000x64.size a
  hwx5_4 : ∀ i : grid5.Coords, EltTy.bits .f32 = 32 ∨ (Rect.block (s := S50000x64) S1000x64.size (cc5_transform_4 i) (hinb5_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2400x1000_S1000x128_S2400x128_1_0_0_1_n_n : DotDims S2400x1000 S1000x128 S2400x128 where
  lhsContracting := [1]
  rhsContracting := [0]
  lhsNonContracting := [0]
  rhsNonContracting := [1]
  lhsBatch := []
  rhsBatch := []
  wf := dot_S2400x1000_S1000x128_S2400x128_1_0_0_1_n_n_wf
def dot_S2400x1000_S2400x128_S1000x128_0_0_1_1_n_n : DotDims S2400x1000 S2400x128 S1000x128 where
  lhsContracting := [0]
  rhsContracting := [0]
  lhsNonContracting := [1]
  rhsNonContracting := [1]
  lhsBatch := []
  rhsBatch := []
  wf := dot_S2400x1000_S2400x128_S1000x128_0_0_1_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S2400x1000_S1000x64_S2400x64_1_0_0_1_n_n : DotDims S2400x1000 S1000x64 S2400x64 where
  lhsContracting := [1]
  rhsContracting := [0]
  lhsNonContracting := [0]
  rhsNonContracting := [1]
  lhsBatch := []
  rhsBatch := []
  wf := dot_S2400x1000_S1000x64_S2400x64_1_0_0_1_n_n_wf
def dot_S2400x1000_S2400x64_S1000x64_0_0_1_1_n_n : DotDims S2400x1000 S2400x64 S1000x64 where
  lhsContracting := [0]
  rhsContracting := [0]
  lhsNonContracting := [1]
  rhsNonContracting := [1]
  lhsBatch := []
  rhsBatch := []
  wf := dot_S2400x1000_S2400x64_S1000x64_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v18) S2400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2400x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v20) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v21) S1000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S2400x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v22) S2400x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v22) S2400x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16) S2400x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v14) S1000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v23) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v24) S1000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S50000x64 : Shape := ⟨2, ![50000, 64]⟩
abbrev S600000x64 : Shape := ⟨2, ![600000, 64]⟩
abbrev S1x64 : Shape := ⟨2, ![1, 64]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S600000, .i32⟩
  | .hbm, ⟨6, _⟩ => ⟨S600000, .i32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S_, .f32⟩
  | .hbm, ⟨45, _⟩ => ⟨S50000x128, .f32⟩
  | .hbm, ⟨46, _⟩ => ⟨S600000x1, .i32⟩
  | .hbm, ⟨47, _⟩ => ⟨S50000x128, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x64, .f32⟩
  | .hbm, ⟨61, _⟩ => ⟨S_, .i32⟩
  | .hbm, ⟨62, _⟩ => ⟨S600000, .i32⟩
  | .hbm, ⟨63, _⟩ => ⟨S600000, .i1⟩
  | .hbm, ⟨64, _⟩ => ⟨S_, .i32⟩
  | .hbm, ⟨65, _⟩ => ⟨S600000, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x64, .f32⟩
  | .hbm, ⟨70, _⟩ => ⟨S_, .f32⟩
  | .hbm, ⟨71, _⟩ => ⟨S50000x64, .f32⟩
  | .hbm, ⟨72, _⟩ => ⟨S600000x1, .i32⟩
  | .hbm, ⟨73, _⟩ => ⟨S50000x64, .f32⟩
  | .hbm, ⟨74, _⟩ => ⟨S50000x1, .f32⟩
  | .hbm, ⟨75, _⟩ => ⟨S50000x64, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

class Facts : Prop extends Facts₀ where

variable [Facts]
-- ==== Proof.KI.LinBody0.lean ====
import proofs.«411707_j25580825215441_1_alg».proof.Proof.Gen.KernelIdeal.Launch
import proofs.«411707_j25580825215441_1_alg».proof.Proof.Gen.KernelIdeal.Skeleton
import proofs.«411707_j25580825215441_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev SO0 : Shape := S5000x128
abbrev SW0 : Shape := S128x128

abbrev r0_a : Rect S5000x128 := Rect.unit (s := S5000x128) ![0, 0] S5000x128.size inb_S5000x128_S5000x128_0_0
abbrev r0_b : Rect S5000x1 := Rect.unit (s := S5000x1) ![0, 0] S5000x1.size inb_S5000x1_S5000x1_0_0
abbrev r0_c : Rect SW0 := Rect.unit (s := SW0) ![0, 0] SW0.size inb_S128x128_S128x128_0_0
abbrev r0_o : Rect SO0 := Rect.unit (s := SO0) ![0, 0] SO0.size inb_S5000x128_S5000x128_0_0

def out0_3 (x0 : Vec F S5000x128 .f32) (x1 : Vec F S5000x1 .f32) (x2 : Vec F SW0 .f32) : Vec F SO0 .f32 :=
  View.canon [⟨r0_o, k0_pay1 (View.ld x0 r0_a) (View.ld x1 r0_b) (View.ld x2 r0_c)⟩]

theorem cover0_3 (p0 : Vec F SO0 .f32) (y : SO0.Idx) :
    ∃ pc ∈ ([⟨r0_o, p0⟩] : List (View.Piece (Elt F) SO0 .f32)), y ∈ pc.1.set :=
  View.cover_of_tiled [⟨r0_o, p0⟩] SO0.size (by rfl) y

set_option maxHeartbeats 1000000 in

theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem SW0 .f32) (harg3 : arg3.IsWhole) (arg4 : Memref sig .tc .vmem SO0 .f32) (harg4 : arg4.IsWhole)
    (x0 : Vec F S5000x128 .f32) (x1 : Vec F S5000x1 .f32) (x2 : Vec F SW0 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_norm_kernel i arg1 harg1 arg2 harg2 arg3 harg3 arg4 harg4) K := by
  simp only [cc0__linear_norm_kernel_eq_skeleton]; unfold cc0__linear_norm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Hand

end
-- ==== Proof.KI.GatherBody1.lean ====
import proofs.«411707_j25580825215441_1_alg».proof.Proof.Gen.KernelIdeal.Launch
import proofs.«411707_j25580825215441_1_alg».proof.Proof.Gen.KernelIdeal.Skeleton
import proofs.«411707_j25580825215441_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem kernel1_off00 : (![0, 0] : Fin 2 → Nat) = fun _ => 0 := by
  funext a; fin_cases a <;> rfl

theorem kernel1_readAt_data {κ : Kind} {sp : Space} (v : View sig κ sp S1000x128 .f32) (f : v.ty.Contents (Elt F)) :
    v.readAt (Elt F) (Rect.unit ![0, 0] S1000x128.size inb_S1000x128_S1000x128_0_0).toLoadRect f = v.read (Elt F) f :=
  View.ld_unit_zero (S := S1000x128) kernel1_off00 inb_S1000x128_S1000x128_0_0 _

theorem kernel1_readAt_idx {κ : Kind} {sp : Space} (v : View sig κ sp S2400x1 .i32) (f : v.ty.Contents (Elt F)) :
    v.readAt (Elt F) (Rect.unit ![0, 0] S2400x1.size inb_S2400x1_S2400x1_0_0).toLoadRect f = v.read (Elt F) f :=
  View.ld_unit_zero (S := S2400x1) kernel1_off00 inb_S2400x1_S2400x1_0_0 _

theorem kernel1_readAt_acc {κ : Kind} {sp : Space} {e : EltTy} (v : View sig κ sp S2400x128 e) (f : v.ty.Contents (Elt F)) :
    v.readAt (Elt F) (Rect.unit ![0, 0] S2400x128.size inb_S2400x128_S2400x128_0_0).toLoadRect f = v.read (Elt F) f :=
  View.ld_unit_zero (S := S2400x128) kernel1_off00 inb_S2400x128_S2400x128_0_0 _

theorem kernel1_read_store {κ : Kind} {sp : Space} {e : EltTy} (v : View sig κ sp S2400x128 e) (f : v.ty.Contents (Elt F))
    (w : S2400x128.Idx → Elt F e) (L : List (View.Piece (Elt F) S2400x128 e)) :
    v.read (Elt F) (v.writes (Elt F) f
      ((⟨Rect.unit ![0, 0] S2400x128.size inb_S2400x128_S2400x128_0_0, w⟩ : View.Piece (Elt F) S2400x128 e) :: L)) = w := by
  rw [View.read_writes_eq_canon _ _ _
      (fun y => ⟨_, List.Mem.head _, View.mem_set_unit_zero kernel1_off00 inb_S2400x128_S2400x128_0_0 y⟩),
    View.canon_cons_unit_zero kernel1_off00]

theorem kernel1_readCov_store {κ : Kind} {sp : Space} {e : EltTy} (v : View sig κ sp S2400x128 e)
    (w : S2400x128.Idx → Elt F e) :
    v.readCov [(⟨Rect.unit ![0, 0] S2400x128.size inb_S2400x128_S2400x128_0_0, w⟩ : View.Piece (Elt F) S2400x128 e)]
      (Rect.unit ![0, 0] S2400x128.size inb_S2400x128_S2400x128_0_0).toLoadRect = w :=
  View.readCov_unit_zero v kernel1_off00 inb_S2400x128_S2400x128_0_0 w

abbrev cond1_0 (i : grid1.Coords) : Prop :=
  (Scalar.cmpi .ne (Scalar.extui (Scalar.cmpi .eq (BitVec.ofNat 32 (i 1).val) 0#32)) 0#32) = 1#1

abbrev cond1_1 (i : grid1.Coords) : Prop := k1_cond2 i = 1#1

set_option maxHeartbeats 1000000 in

theorem kernel1_mid (c : Dev nD) (E : Set ℕ) (i : grid1.Coords) (arg2 : Memref sig .tc .vmem S1000x128 .f32) (harg2 : arg2.IsWhole)
    (arg3 : Memref sig .tc .vmem S2400x1 .i32) (harg3 : arg3.IsWhole)
    (arg4 : Memref sig .tc .vmem S2400x128 .bf16) (harg4 : arg4.IsWhole)
    (arg5 : Memref sig .tc .vmem S2400x128 .f32) (harg5 : arg5.IsWhole)
    (hc0 : ¬cond1_0 i) (hc1 : ¬cond1_1 i)
    (x0 : Vec F S1000x128 .f32) (x1 : Vec F S2400x1 .i32) (xo : Vec F S2400x128 .bf16) (s : Vec F S2400x128 .f32)
    (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare s
        ∗ (iprop(owns (c : Thread nD τ) arg2 fullShare x0 ∗ owns (c : Thread nD τ) arg3 fullShare x1
            ∗ owns (c : Thread nD τ) arg4 fullShare xo ∗ owns (c : Thread nD τ) arg5 fullShare (k1_pay2 i x1 x0 s)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_run_names
  rw [kernel1_read_store]
  rw [kernel1_readAt_idx, kernel1_readAt_data, kernel1_readAt_acc]

set_option maxHeartbeats 1000000 in

theorem kernel1_first (c : Dev nD) (E : Set ℕ) (i : grid1.Coords) (arg2 : Memref sig .tc .vmem S1000x128 .f32) (harg2 : arg2.IsWhole)
    (arg3 : Memref sig .tc .vmem S2400x1 .i32) (harg3 : arg3.IsWhole)
    (arg4 : Memref sig .tc .vmem S2400x128 .bf16) (harg4 : arg4.IsWhole)
    (arg5 : Memref sig .tc .vmem S2400x128 .f32) (harg5 : arg5.IsWhole)
    (hc0 : cond1_0 i) (hc1 : ¬cond1_1 i)
    (x0 : Vec F S1000x128 .f32) (x1 : Vec F S2400x1 .i32) (xo : Vec F S2400x128 .bf16)
    (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo ∗ owns (c : Thread nD τ) arg5 fullShare (k1_pay2 i x1 x0 k1_pay1)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%fo, %hfo, HO⟩, ⟨%d, %fs, -, HS⟩, Hk⟩
  subst hf0; subst hf1; subst hfo
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_run_names
  rw [kernel1_read_store]
  rw [kernel1_readAt_idx, kernel1_readAt_data, kernel1_readCov_store]

set_option maxHeartbeats 1000000 in

theorem kernel1_last (c : Dev nD) (E : Set ℕ) (i : grid1.Coords) (arg2 : Memref sig .tc .vmem S1000x128 .f32) (harg2 : arg2.IsWhole)
    (arg3 : Memref sig .tc .vmem S2400x1 .i32) (harg3 : arg3.IsWhole)
    (arg4 : Memref sig .tc .vmem S2400x128 .bf16) (harg4 : arg4.IsWhole)
    (arg5 : Memref sig .tc .vmem S2400x128 .f32) (harg5 : arg5.IsWhole)
    (hc0 : ¬cond1_0 i) (hc1 : cond1_1 i)
    (x0 : Vec F S1000x128 .f32) (x1 : Vec F S2400x1 .i32) (s : Vec F S2400x128 .f32)
    (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k1_pay3 (k1_pay2 i x1 x0 s))
            ∗ owns (c : Thread nD τ) arg5 fullShare (k1_pay2 i x1 x0 s)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%d, %fo, -, HO⟩, ⟨%fs, %hfs, HS⟩, Hk⟩
  subst hf0; subst hf1; subst hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_run_names
    rw [kernel1_read_store]
    rw [kernel1_readCov_store, kernel1_readAt_idx, kernel1_readAt_data, kernel1_readAt_acc]
  iexists _; isplitr
  swap; · iexact HS
  ipureintro
  sl_unfold_run_names
  rw [kernel1_read_store]
  rw [kernel1_readAt_idx, kernel1_readAt_data, kernel1_readAt_acc]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S2400x128 .f32 := Memref.whole cc1_scratch0

def acc1 (c : Dev nD) : (n : ℕ) → n < cfg1.N → Vec F S2400x128 .f32
  | 0, hn => k1_pay2 (grid1.coords ⟨0, hn⟩) (iblk1 V c 1 ⟨0, hn⟩) (iblk1 V c 0 ⟨0, hn⟩) k1_pay1
  | n + 1, hn => k1_pay2 (grid1.coords ⟨n + 1, hn⟩) (iblk1 V c 1 ⟨n + 1, hn⟩) (iblk1 V c 0 ⟨n + 1, hn⟩)
      (if (n + 1) % 50 = 0 then k1_pay1 else acc1 c n (Nat.lt_of_succ_lt hn))

def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]

theorem grid1_inner (t : Fin cfg1.N) : ((grid1.coords t) 1).val = t.val % 50 := by
  show t.val / grid1.stride 1 % grid1.bound 1 = t.val % 50
  have hs : grid1.stride 1 = 1 := by decide
  rw [hs, Nat.div_one]; rfl

theorem cond1_chain0_iff : ∀ x : ℕ, x < 50 →
    ((Scalar.cmpi .ne (Scalar.extui (Scalar.cmpi .eq (BitVec.ofNat 32 x) 0#32)) 0#32) = 1#1 ↔ x = 0) := by decide

theorem cond1_chain49_iff : ∀ x : ℕ, x < 50 →
    ((Scalar.cmpi .ne (Scalar.extui (Scalar.cmpi .eq (BitVec.ofNat 32 x) 49#32)) 0#32) = 1#1 ↔ x = 49) := by decide

theorem hcond1_0 (t : Fin cfg1.N) : cond1_0 (grid1.coords t) ↔ t.val % 50 = 0 :=
  (cond1_chain0_iff _ ((grid1.coords t) 1).isLt).trans (by rw [grid1_inner])

theorem hcond1_1 (t : Fin cfg1.N) : cond1_1 (grid1.coords t) ↔ t.val % 50 = 49 :=
  (cond1_chain49_iff _ ((grid1.coords t) 1).isLt).trans (by rw [grid1_inner])

theorem liveAt1_0 (t : Fin cfg1.N) : cfg1.idle 0 (grid1.coords t) = false := rfl
theorem liveAt1_1 (t : Fin cfg1.N) : cfg1.idle 1 (grid1.coords t) = false := rfl

theorem idle1_2 (t : Fin cfg1.N) (h : ¬cond1_1 (grid1.coords t)) : cfg1.idle 2 (grid1.coords t) = true := by
  show (!(k1_cond2 (grid1.coords t) == 1#1)) = true
  rw [Bool.not_eq_true', beq_eq_false_iff_ne]; exact h

theorem noFlush1_2 (t : Fin cfg1.N) (h : ¬t.val % 50 = 49) : (cfg1.win 2).flush t = false :=
  Bool.eq_false_iff.mpr fun hf => h ((flush1_2 t).mp hf)

theorem liveAt1_2 (t : Fin cfg1.N) (h : cond1_1 (grid1.coords t)) : cfg1.idle 2 (grid1.coords t) = false := by
  show (!(k1_cond2 (grid1.coords t) == 1#1)) = false
  rw [show k1_cond2 (grid1.coords t) = 1#1 from h]; rfl

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem acc1_first (c : Dev nD) (t : Fin cfg1.N) (h0 : t.val % 50 = 0) :
    acc1 V c t.val t.isLt = k1_pay2 (grid1.coords t) (iblk1 V c 1 t) (iblk1 V c 0 t) k1_pay1 := by
  obtain ⟨n, hn⟩ := t
  cases n with
  | zero => rfl
  | succ n =>
    have h0' : (n + 1) % 50 = 0 := h0
    show k1_pay2 _ _ _ (if (n + 1) % 50 = 0 then _ else _) = _
    rw [if_pos h0']

theorem acc1_next (c : Dev nD) (t : Fin cfg1.N) (h0 : ¬t.val % 50 = 0) :
    acc1 V c t.val t.isLt = k1_pay2 (grid1.coords t) (iblk1 V c 1 t) (iblk1 V c 0 t)
      (acc1 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 50 = 0 := h0
    show k1_pay2 _ _ _ (if (n + 1) % 50 = 0 then _ else _) = _
    rw [if_neg h0']; rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

abbrev ms1_0 (t : Fin cfg1.N) : Memref sig .tc .vmem S1000x128 .f32 := win1_0.stage (cfg1.slots t 0)
abbrev ms1_1 (t : Fin cfg1.N) : Memref sig .tc .vmem S2400x1 .i32 := win1_1.stage (cfg1.slots t 1)
abbrev ms1_2 (t : Fin cfg1.N) : Memref sig .tc .vmem S2400x128 .bf16 := win1_2.stage (cfg1.slots t 2)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 50 = 0
  · have h1 : ¬t.val % 50 = 49 := by omega
    have hc0 : cond1_0 (grid1.coords t) := (hcond1_0 t).mpr h0
    have hc1 : ¬cond1_1 (grid1.coords t) := fun h => h1 ((hcond1_1 t).mp h)
    rw [Dat.leavesExact_idle (dat1 V c) 2 t (idle1_2 t hc1) (noFlush1_2 t h1)]
    rw [acc1_first V c t h0]
    by_cases hz : t.val = 0
    · rw [PhiS1_castSucc V c t, PhiS1_zero V c _ _ hz, PhiA1_eq]
      iintro ⟨⟨⟨⟨%ds, HS⟩, HR⟩, Hg⟩, Ho, ⟨%d0, H0⟩, ⟨%d1, H1⟩, ⟨%d2, H2⟩⟩
      iapply (kernel1_first c Set.univ (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexists ds; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists d2; iexact H2
    · rw [PhiS1_castSucc V c t, PhiS1_pos V c _ _ hz]
      iintro ⟨⟨HS, HR, Hg⟩, Ho, ⟨%d0, H0⟩, ⟨%d1, H1⟩, ⟨%d2, H2⟩⟩
      iapply (kernel1_first c Set.univ (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists d2; iexact H2
  · have hz : t.val ≠ 0 := fun e => h0 (by rw [e])
    have hc0 : ¬cond1_0 (grid1.coords t) := fun h => h0 ((hcond1_0 t).mp h)
    rw [acc1_next V c t h0]
    rw [PhiS1_castSucc V c t, PhiS1_pos V c _ _ hz]
    by_cases h1 : t.val % 50 = 49
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, acc1_next V c t h0]
      iintro ⟨⟨HS, HR, Hg⟩, Ho, ⟨%d0, H0⟩, ⟨%d1, H1⟩, ⟨%d2, H2⟩⟩
      iapply (kernel1_last c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idle1_2 t hc1) (noFlush1_2 t h1)]
      iintro ⟨⟨HS, HR, Hg⟩, Ho, ⟨%d0, H0⟩, ⟨%d1, H1⟩, ⟨%d2, H2⟩⟩
      iapply (kernel1_mid c Set.univ (grid1.coords t) _ _ _ _ _ _ _ _ hc0 hc1 (iblk1 V c 0 t) (iblk1 V c 1 t) ((dat1 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists d2; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c := by
  have hN : (Fin.last cfg1.N).val ≠ 0 := by
    rw [Fin.val_last]; have : cfg1.N = 12500 := N_1; omega
  rw [show (dat1 V c).Φ (Fin.last cfg1.N) = PhiS1 V c (Fin.last cfg1.N).val (Nat.le_of_lt_succ (Fin.last cfg1.N).isLt) from rfl,
    PhiS1_pos V c _ _ hN, PhiA1_eq]
  iintro ⟨HS, HR, Hg⟩
  isplitl [HS HR]
  · isplitl [HS]
    · iexists _; iexact HS
    iexact HR
  iexact Hg

end Cert.KernelIdeal.Hand

end
-- ==== Proof.KI.ScatterBody2.lean ====
import proofs.«411707_j25580825215441_1_alg».proof.Proof.Gen.KernelIdeal.Launch
import proofs.«411707_j25580825215441_1_alg».proof.Proof.Gen.KernelIdeal.Skeleton
import proofs.«411707_j25580825215441_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S1000x128 .f32 := Memref.whole cc2_scratch0

def acc2 (c : Dev nD) : (n : ℕ) → n < cfg2.N → Vec F S1000x128 .f32
  | 0, hn => k2_pay2 (grid2.coords ⟨0, hn⟩) (iblk2 V c 1 ⟨0, hn⟩) (iblk2 V c 0 ⟨0, hn⟩) k2_pay1
  | n + 1, hn => k2_pay2 (grid2.coords ⟨n + 1, hn⟩) (iblk2 V c 1 ⟨n + 1, hn⟩) (iblk2 V c 0 ⟨n + 1, hn⟩)
      (if (n + 1) % 250 = 0 then k2_pay1 else acc2 c n (Nat.lt_of_succ_lt hn))

def PhiS2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (acc2 V c t.val t.isLt) (iblk2 V c 2 t) (iblk2 V c 3 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay3 (acc2 V c t.val t.isLt) (iblk2 V c 2 t) (iblk2 V c 3 t) := by dsimp only [dat2]

abbrev cond2_0 (i : grid2.Coords) : Prop :=
  (Scalar.cmpi .ne (Scalar.extui (Scalar.cmpi .eq (BitVec.ofNat 32 (i 1).val) 0#32)) 0#32) = 1#1

abbrev cond2_1 (i : grid2.Coords) : Prop := k2_cond2 i = 1#1

theorem acc2_off : (![0, 0] : Fin 2 → ℕ) = fun _ => 0 := funext fun a => by fin_cases a <;> rfl

abbrev acc2_rect : Rect S1000x128 := Rect.unit (s := S1000x128) ![0, 0] S1000x128.size inb_S1000x128_S1000x128_0_0

theorem acc2_cover (w : Vec F S1000x128 .f32) (L : List (View.Piece (Elt F) S1000x128 .f32)) (y : S1000x128.Idx) :
    ∃ pc ∈ ((⟨acc2_rect, w⟩ : View.Piece (Elt F) S1000x128 .f32) :: L), y ∈ pc.1.set :=
  ⟨_, List.mem_cons_self, View.mem_set_unit_zero acc2_off inb_S1000x128_S1000x128_0_0 y⟩

set_option maxHeartbeats 2000000 in

theorem sound_kernel2_A (c : Dev nD) (E : Set ℕ) (i : grid2.Coords) (arg2 : Memref sig .tc .vmem S2400x128 .bf16) (harg2 : arg2.IsWhole) (arg3 : Memref sig .tc .vmem S2400x1 .i32) (harg3 : arg3.IsWhole) (arg4 : Memref sig .tc .vmem S1000x1 .f32) (harg4 : arg4.IsWhole) (arg5 : Memref sig .tc .vmem S1x128 .f32) (harg5 : arg5.IsWhole) (arg6 : Memref sig .tc .vmem S1000x128 .f32) (harg6 : arg6.IsWhole) (arg7 : Memref sig .tc .vmem S1000x128 .f32) (harg7 : arg7.IsWhole)
    (hc0 : cond2_0 i) (hc1 : ¬cond2_1 i)
    (x0 : Vec F S2400x128 .bf16) (x1 : Vec F S2400x1 .i32) (K : PUnit → sProp 𝕄) :
    iprop(owns (c : Thread nD τ) arg2 fullShare x0 ∗ owns (c : Thread nD τ) arg3 fullShare x1 ∗ (∃ s, owns (c : Thread nD τ) arg7 fullShare s)
        ∗ (iprop(owns (c : Thread nD τ) arg2 fullShare x0 ∗ owns (c : Thread nD τ) arg3 fullShare x1
            ∗ owns (c : Thread nD τ) arg7 fullShare (k2_pay2 i x1 x0 k2_pay1)) -∗ K ⟨⟩))
      ⊢ wp frame (wpE (defs₀ (F := F)) Variants.none c none) E (cc2__scatter_kernel i arg2 harg2 arg3 harg3 arg4 harg4 arg5 harg5 arg6 harg6 arg7 harg7) K := by
  simp only [cc2__scatter_kernel_eq_skeleton]; unfold cc2__scatter_kernel_skel
  unfold owns
  iintro ⟨⟨%f0, %hf0, H0⟩, ⟨%f1, %hf1, H1⟩, ⟨%s, %fs, -, HS⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (acc2_cover _ _), View.canon_cons_unit_zero (S := S1000x128) acc2_off,
    View.readCov_unit_zero (S := S1000x128) _ acc2_off]
  rw [View.readAt_eq_ld, View.readAt_eq_ld, View.ld_unit_zero (S := S2400x1) acc2_off, View.ld_unit_zero (S := S2400x128) acc2_off]

set_option maxHeartbeats 2000000 in

theorem sound_kernel2_B (c : Dev nD) (E : Set ℕ) (i : grid2.Coords) (arg2 : Memref sig .tc .vmem S2400x128 .bf16) (harg2 : arg2.IsWhole) (arg3 : Memref sig .tc .vmem S2400x1 .i32) (harg3 : arg3.IsWhole) (arg4 : Memref sig .tc .vmem S1000x1 .f32) (harg4 : arg4.IsWhole) (arg5 : Memref sig .tc .vmem S1x128 .f32) (harg5 : arg5.IsWhole) (arg6 : Memref sig .tc .vmem S1000x128 .f32) (harg6 : arg6.IsWhole) (arg7 : Memref sig .tc .vmem S1000x128 .f32) (harg7 : arg7.IsWhole)
    (hc0 : ¬cond2_0 i) (hc1 : ¬cond2_1 i)
    (x0 : Vec F S2400x128 .bf16) (x1 : Vec F S2400x1 .i32) (s : Vec F S1000x128 .f32) (K : PUnit → sProp 𝕄) :
    iprop(owns (c : Thread nD τ) arg2 fullShare x0 ∗ owns (c : Thread nD τ) arg3 fullShare x1 ∗ owns (c : Thread nD τ) arg7 fullShare s
        ∗ (iprop(owns (c : Thread nD τ) arg2 fullShare x0 ∗ owns (c : Thread nD τ) arg3 fullShare x1
            ∗ owns (c : Thread nD τ) arg7 fullShare (k2_pay2 i x1 x0 s)) -∗ K ⟨⟩))
      ⊢ wp frame (wpE (defs₀ (F := F)) Variants.none c none) E (cc2__scatter_kernel i arg2 harg2 arg3 harg3 arg4 harg4 arg5 harg5 arg6 harg6 arg7 harg7) K := by
  simp only [cc2__scatter_kernel_eq_skeleton]; unfold cc2__scatter_kernel_skel
  unfold owns
  iintro ⟨⟨%f0, %hf0, H0⟩, ⟨%f1, %hf1, H1⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (acc2_cover _ _), View.canon_unit_zero acc2_off]
  rw [View.readAt_eq_ld, View.readAt_eq_ld, View.readAt_eq_ld, View.ld_unit_zero (S := S2400x1) acc2_off, View.ld_unit_zero (S := S2400x128) acc2_off, View.ld_unit_zero (S := S1000x128) acc2_off]

set_option maxHeartbeats 2000000 in

theorem sound_kernel2_C (c : Dev nD) (E : Set ℕ) (i : grid2.Coords) (arg2 : Memref sig .tc .vmem S2400x128 .bf16) (harg2 : arg2.IsWhole) (arg3 : Memref sig .tc .vmem S2400x1 .i32) (harg3 : arg3.IsWhole) (arg4 : Memref sig .tc .vmem S1000x1 .f32) (harg4 : arg4.IsWhole) (arg5 : Memref sig .tc .vmem S1x128 .f32) (harg5 : arg5.IsWhole) (arg6 : Memref sig .tc .vmem S1000x128 .f32) (harg6 : arg6.IsWhole) (arg7 : Memref sig .tc .vmem S1000x128 .f32) (harg7 : arg7.IsWhole)
    (hc0 : ¬cond2_0 i) (hc1 : cond2_1 i)
    (x0 : Vec F S2400x128 .bf16) (x1 : Vec F S2400x1 .i32) (x2 : Vec F S1000x1 .f32) (x3 : Vec F S1x128 .f32)
    (s : Vec F S1000x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay3 (k2_pay2 i x1 x0 s) x2 x3)
            ∗ owns (c : Thread nD τ) arg7 fullShare (k2_pay2 i x1 x0 s)) -∗ K ⟨⟩))
      ⊢ wp frame (wpE (defs₀ (F := F)) Variants.none c none) E (cc2__scatter_kernel i arg2 harg2 arg3 harg3 arg4 harg4 arg5 harg5 arg6 harg6 arg7 harg7) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%d, %f4, -, H4⟩, ⟨%fs, %hfs, HS⟩, Hk⟩
  subst hf0 hf1 hf2 hf3 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (acc2_cover _ _), View.canon_unit_zero acc2_off,
      View.readCov_unit_zero (S := S1000x128) _ acc2_off]
    rw [View.readAt_eq_ld, View.readAt_eq_ld, View.readAt_eq_ld, View.readAt_eq_ld, View.readAt_eq_ld,
      View.ld_unit_zero (S := S2400x1) acc2_off, View.ld_unit_zero (S := S2400x128) acc2_off, View.ld_unit_zero (S := S1000x128) acc2_off,
      View.ld_unit_zero (S := S1000x1) acc2_off, View.ld_unit_zero (S := S1x128) acc2_off]
  iexists _; isplitr
  swap; · iexact HS
  ipureintro
  sl_unfold_run_names
  rw [View.read_writes_eq_canon _ _ _ (acc2_cover _ _), View.canon_unit_zero acc2_off]
  rw [View.readAt_eq_ld, View.readAt_eq_ld, View.readAt_eq_ld, View.ld_unit_zero (S := S2400x1) acc2_off, View.ld_unit_zero (S := S2400x128) acc2_off, View.ld_unit_zero (S := S1000x128) acc2_off]

theorem hcond2_0 : ∀ t : Fin cfg2.N, cond2_0 (grid2.coords t) ↔ t.val % 250 = 0 :=
  (by decide +kernel : ∀ t : Fin grid2.N, cond2_0 (grid2.coords t) ↔ t.val % 250 = 0)

theorem hcond2_1 : ∀ t : Fin cfg2.N, cond2_1 (grid2.coords t) ↔ t.val % 250 = 249 :=
  (by decide +kernel : ∀ t : Fin grid2.N, cond2_1 (grid2.coords t) ↔ t.val % 250 = 249)

theorem idleAt2_4 (t : Fin cfg2.N) (h : ¬cond2_1 (grid2.coords t)) : cfg2.idle 4 (cfg2.grid.coords t) = true := by
  show (!(k2_cond2 (grid2.coords t) == 1#1)) = true
  rw [Bool.not_eq_true', beq_eq_false_iff_ne]; exact h

theorem liveAt2_4 (t : Fin cfg2.N) (h : cond2_1 (grid2.coords t)) : cfg2.idle 4 (cfg2.grid.coords t) = false := by
  show (!(k2_cond2 (grid2.coords t) == 1#1)) = false
  rw [show k2_cond2 (grid2.coords t) = 1#1 from h]; rfl

theorem acc2_first (c : Dev nD) (t : Fin cfg2.N) (h0 : t.val % 250 = 0) :
    acc2 V c t.val t.isLt = k2_pay2 (grid2.coords t) (iblk2 V c 1 t) (iblk2 V c 0 t) k2_pay1 := by
  obtain ⟨n, hn⟩ := t
  cases n with
  | zero => rfl
  | succ n =>
    show k2_pay2 _ _ _ (if (n + 1) % 250 = 0 then k2_pay1 else acc2 V c n _) = _
    rw [if_pos h0]

theorem acc2_next (c : Dev nD) (t : Fin cfg2.N) (h0 : ¬t.val % 250 = 0) :
    acc2 V c t.val t.isLt = k2_pay2 (grid2.coords t) (iblk2 V c 1 t) (iblk2 V c 0 t)
      (acc2 V c (t.val - 1) (Nat.lt_of_le_of_lt (Nat.sub_le _ _) t.isLt)) := by
  obtain ⟨n, hn⟩ := t
  cases n with
  | zero => exact absurd (Nat.zero_mod _) h0
  | succ n =>
    show k2_pay2 _ _ _ (if (n + 1) % 250 = 0 then k2_pay1 else acc2 V c n _) = _
    rw [if_neg h0]; rfl

theorem PhiS2_succ (c : Dev nD) (n : ℕ) (hn : n < cfg2.N) :
    PhiS2 V c (n + 1) hn = iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r)) := rfl

theorem PhiS2_pos (c : Dev nD) (n : ℕ) (h : n ≤ cfg2.N) (hz : n ≠ 0) :
    PhiS2 V c n h = iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; rfl

theorem PhiS2_any (c : Dev nD) (n : ℕ) (h : n ≤ cfg2.N) :
    PhiS2 V c n h ⊢ iprop((∃ s, owns (c : Thread nD τ) scM2 fullShare s)
      ∗ Pipeline.scopedRestBut (Ix := Unit) (Name := ℕ) (U := UR sig nD τ) (Lvl := ℕ) (Val := Elt F) spec2 c [cc2_scratch0]
      ∗ (∃ r, prngReg c r)) := by
  cases n with
  | zero =>
    rw [show PhiS2 V c 0 h = Pipeline.ΦA spec2 c from rfl, PhiA2_eq]
    iintro ⟨⟨HS, HR⟩, Hg⟩
    isplitl [HS]; · iexact HS
    isplitl [HR]; · iexact HR
    iexact Hg
  | succ n =>
    rw [PhiS2_succ]
    iintro ⟨HS, HR, Hg⟩
    isplitl [HS]; · iexists _; iexact HS
    isplitl [HR]; · iexact HR
    iexact Hg

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

theorem noFlush2_4 (t : Fin cfg2.N) (h : ¬t.val % 250 = 249) : (cfg2.win 4).flush t = false := by
  cases hf : (cfg2.win 4).flush t with
  | false => rfl
  | true => exact absurd ((flush2_4 t).mp hf) h

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem post2_0 (c : Dev nD) (t : Fin cfg2.N) :
    (dat2 V c).leavesExact 0 t = owns (c : Thread nD τ) (st2_0 t) fullShare (iblk2 V c 0 t) := by
  rw [← after2_0]
theorem post2_1 (c : Dev nD) (t : Fin cfg2.N) :
    (dat2 V c).leavesExact 1 t = owns (c : Thread nD τ) (st2_1 t) fullShare (iblk2 V c 1 t) := by
  rw [← after2_1]
theorem post2_2 (c : Dev nD) (t : Fin cfg2.N) :
    (dat2 V c).leavesExact 2 t = owns (c : Thread nD τ) (st2_2 t) fullShare (iblk2 V c 2 t) := by
  rw [← after2_2]
theorem post2_3 (c : Dev nD) (t : Fin cfg2.N) :
    (dat2 V c).leavesExact 3 t = owns (c : Thread nD τ) (st2_3 t) fullShare (iblk2 V c 3 t) := by
  rw [← after2_3]

set_option maxHeartbeats 4000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).Φ t.castSucc = PhiS2 V c t.val (Nat.le_of_lt t.isLt) from rfl]
  rw [post2_0, post2_1, post2_2, post2_3]
  have hN : t.val < 12500 := lt_of_lt_of_eq t.isLt (show cfg2.N = 12500 from N_2)
  by_cases h0 : t.val % 250 = 0
  · have h1 : ¬t.val % 250 = 249 := by omega
    have hc0 : cond2_0 (grid2.coords t) := (hcond2_0 t).mpr h0
    have hc1 : ¬cond2_1 (grid2.coords t) := fun h => h1 ((hcond2_1 t).mp h)
    rw [Dat.leavesExact_idle (dat2 V c) 4 t (idleAt2_4 t hc1) (noFlush2_4 t h1), acc2_first V c t h0]
    iintro ⟨HΦ, Ho, ⟨%d0, H0⟩, ⟨%d1, H1⟩, ⟨%d2, H2⟩, ⟨%d3, H3⟩, H4⟩
    ihave HΦ' := (PhiS2_any V c _ _) $$ HΦ
    icases HΦ' with ⟨HS, HR, Hg⟩
    iapply (sound_kernel2_A c Set.univ (grid2.coords t) _ _ _ _ _ _ _ _ _ _ _ _ hc0 hc1 (iblk2 V c 0 t) (iblk2 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    have hc0 : ¬cond2_0 (grid2.coords t) := fun h => h0 ((hcond2_0 t).mp h)
    rw [PhiS2_pos V c _ _ hz, acc2_next V c t h0]
    by_cases h1 : t.val % 250 = 249
    · have hc1 : cond2_1 (grid2.coords t) := (hcond2_1 t).mpr h1
      rw [show (dat2 V c).leavesExact 4 t = owns (c : Thread nD τ) (st2_4 t) fullShare ((dat2 V c).after 4 t) from by
        unfold Dat.leavesExact; rw [liveAt2_4 t hc1], after2_4, acc2_next V c t h0]
      iintro ⟨⟨HS, HR, Hg⟩, Ho, ⟨%d0, H0⟩, ⟨%d1, H1⟩, ⟨%d2, H2⟩, ⟨%d3, H3⟩, ⟨%d4, H4⟩⟩
      iapply (sound_kernel2_C c Set.univ (grid2.coords t) _ _ _ _ _ _ _ _ _ _ _ _ hc0 hc1 (iblk2 V c 0 t) (iblk2 V c 1 t)
        (iblk2 V c 2 t) (iblk2 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 4 t (idleAt2_4 t hc1) (noFlush2_4 t h1)]
      iintro ⟨⟨HS, HR, Hg⟩, Ho, ⟨%d0, H0⟩, ⟨%d1, H1⟩, ⟨%d2, H2⟩, ⟨%d3, H3⟩, H4⟩
      iapply (sound_kernel2_B c Set.univ (grid2.coords t) _ _ _ _ _ _ _ _ _ _ _ _ hc0 hc1 (iblk2 V c 0 t) (iblk2 V c 1 t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl]
  exact Idealize.SL.BI.Entails.refl _

theorem hout2 (c : Dev nD) : (dat2 V c).Φ (Fin.last cfg2.N) ⊢ Pipeline.ΦA spec2 c := by
  rw [show (dat2 V c).Φ (Fin.last cfg2.N) = PhiS2 V c cfg2.N (Nat.le_refl _) from rfl, PhiA2_eq]
  refine (PhiS2_any V c _ _).trans ?_
  iintro ⟨HS, HR, Hg⟩
  isplitl [HS HR]
  · isplitl [HS]; · iexact HS
    iexact HR
  iexact Hg

end Cert.KernelIdeal.Hand

end
-- ==== Proof.KI.LinBody3.lean ====
/- Region 3 (rows scaled by the source-degree factor, times the second weight matrix): proof data and body obligation. -/
import proofs.«411707_j25580825215441_1_alg».proof.Proof.Gen.KernelIdeal.Launch
import proofs.«411707_j25580825215441_1_alg».proof.Proof.Gen.KernelIdeal.Skeleton
import proofs.«411707_j25580825215441_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents the region is entered from: a parameter. -/
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The shapes of the output block and of the weight matrix. -/
abbrev SO3 : Shape := S5000x64
abbrev SW3 : Shape := S128x64

/-! The body's accesses: each buffer whole. -/
abbrev r3_a : Rect S5000x128 := Rect.unit (s := S5000x128) ![0, 0] S5000x128.size inb_S5000x128_S5000x128_0_0
abbrev r3_b : Rect S5000x1 := Rect.unit (s := S5000x1) ![0, 0] S5000x1.size inb_S5000x1_S5000x1_0_0
abbrev r3_c : Rect SW3 := Rect.unit (s := SW3) ![0, 0] SW3.size inb_S128x64_S128x64_0_0
abbrev r3_o : Rect SO3 := Rect.unit (s := SO3) ![0, 0] SO3.size inb_S5000x64_S5000x64_0_0

/-- The output block after the body: its one whole-buffer store of the scaled rows times the weights. -/
def out3_3 (x0 : Vec F S5000x128 .f32) (x1 : Vec F S5000x1 .f32) (x2 : Vec F SW3 .f32) : Vec F SO3 .f32 :=
  View.canon [⟨r3_o, k3_pay1 (View.ld x0 r3_a) (View.ld x1 r3_b) (View.ld x2 r3_c)⟩]

theorem cover3_3 (p0 : Vec F SO3 .f32) (y : SO3.Idx) :
    ∃ pc ∈ ([⟨r3_o, p0⟩] : List (View.Piece (Elt F) SO3 .f32)), y ∈ pc.1.set :=
  View.cover_of_tiled [⟨r3_o, p0⟩] SO3.size (by rfl) y

set_option maxHeartbeats 1000000 in
/-- The body on whole staging memrefs: inputs kept, the output left at `out3_3` of the inputs. -/
theorem sound_kernel3 (c : Dev nD) (E : Set ℕ) (i : grid3.Coords)
    (arg1 : Memref sig .tc .vmem S5000x128 .f32) (harg1 : arg1.IsWhole) (arg2 : Memref sig .tc .vmem S5000x1 .f32) (harg2 : arg2.IsWhole)
    (arg3 : Memref sig .tc .vmem SW3 .f32) (harg3 : arg3.IsWhole) (arg4 : Memref sig .tc .vmem SO3 .f32) (harg4 : arg4.IsWhole)
    (x0 : Vec F S5000x128 .f32) (x1 : Vec F S5000x1 .f32) (x2 : Vec F SW3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_norm_kernel i arg1 harg1 arg2 harg2 arg3 harg3 arg4 harg4) K := by
  simp only [cc3__linear_norm_kernel_eq_skeleton]; unfold cc3__linear_norm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation3 (c : Dev nD) : BodyObligation (dat3 (F := F) V c) (defs₀ (F := F)) Variants.none () Set.univ := fun t => by
  rw [bigSep_W3, bigSep_W3]
  exact sound_body3 V c t

/-- The invariant is the scoped rest at every position. -/
theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.KernelIdeal.Hand

end
-- ==== Proof.KI.GatherBody4.lean ====
/- Region 4 (the one-hot gather): proof data and body obligation. -/
import proofs.«411707_j25580825215441_1_alg».proof.Proof.Gen.KernelIdeal.Launch
import proofs.«411707_j25580825215441_1_alg».proof.Proof.Gen.KernelIdeal.Skeleton
import proofs.«411707_j25580825215441_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses -/

/-- The offsets of a whole-buffer access, however the zeros are spelt. -/
theorem kernel4_off00 : (![0, 0] : Fin 2 → Nat) = fun _ => 0 := by
  funext a; fin_cases a <;> rfl

/-- A load of the whole data block reads the buffer's contents; -/
theorem kernel4_readAt_data {κ : Kind} {sp : Space} (v : View sig κ sp S1000x64 .f32) (f : v.ty.Contents (Elt F)) :
    v.readAt (Elt F) (Rect.unit ![0, 0] S1000x64.size inb_S1000x64_S1000x64_0_0).toLoadRect f = v.read (Elt F) f :=
  View.ld_unit_zero (S := S1000x64) kernel4_off00 inb_S1000x64_S1000x64_0_0 _

/-- of the whole index block likewise; -/
theorem kernel4_readAt_idx {κ : Kind} {sp : Space} (v : View sig κ sp S2400x1 .i32) (f : v.ty.Contents (Elt F)) :
    v.readAt (Elt F) (Rect.unit ![0, 0] S2400x1.size inb_S2400x1_S2400x1_0_0).toLoadRect f = v.read (Elt F) f :=
  View.ld_unit_zero (S := S2400x1) kernel4_off00 inb_S2400x1_S2400x1_0_0 _

/-- of the whole accumulator likewise. -/
theorem kernel4_readAt_acc {κ : Kind} {sp : Space} {e : EltTy} (v : View sig κ sp S2400x64 e) (f : v.ty.Contents (Elt F)) :
    v.readAt (Elt F) (Rect.unit ![0, 0] S2400x64.size inb_S2400x64_S2400x64_0_0).toLoadRect f = v.read (Elt F) f :=
  View.ld_unit_zero (S := S2400x64) kernel4_off00 inb_S2400x64_S2400x64_0_0 _

/-- A store of a whole 2400x128 buffer, made last, leaves its payload whatever was stored before. -/
theorem kernel4_read_store {κ : Kind} {sp : Space} {e : EltTy} (v : View sig κ sp S2400x64 e) (f : v.ty.Contents (Elt F))
    (w : S2400x64.Idx → Elt F e) (L : List (View.Piece (Elt F) S2400x64 e)) :
    v.read (Elt F) (v.writes (Elt F) f
      ((⟨Rect.unit ![0, 0] S2400x64.size inb_S2400x64_S2400x64_0_0, w⟩ : View.Piece (Elt F) S2400x64 e) :: L)) = w := by
  rw [View.read_writes_eq_canon _ _ _
      (fun y => ⟨_, List.Mem.head _, View.mem_set_unit_zero kernel4_off00 inb_S2400x64_S2400x64_0_0 y⟩),
    View.canon_cons_unit_zero kernel4_off00]

/-- A load of the whole buffer after one such store reads the payload. -/
theorem kernel4_readCov_store {κ : Kind} {sp : Space} {e : EltTy} (v : View sig κ sp S2400x64 e)
    (w : S2400x64.Idx → Elt F e) :
    v.readCov [(⟨Rect.unit ![0, 0] S2400x64.size inb_S2400x64_S2400x64_0_0, w⟩ : View.Piece (Elt F) S2400x64 e)]
      (Rect.unit ![0, 0] S2400x64.size inb_S2400x64_S2400x64_0_0).toLoadRect = w :=
  View.readCov_unit_zero v kernel4_off00 inb_S2400x64_S2400x64_0_0 w

/-! ## The body's two conditions -/

/-- The first conditional of the gather body: the inner grid coordinate is zero. -/
abbrev cond4_0 (i : grid4.Coords) : Prop :=
  (Scalar.cmpi .ne (Scalar.extui (Scalar.cmpi .eq (BitVec.ofNat 32 (i 1).val) 0#32)) 0#32) = 1#1
/-- The second: the inner grid coordinate is the last. -/
abbrev cond4_1 (i : grid4.Coords) : Prop := k4_cond2 i = 1#1

/-! ## The body's triple, by the inner coordinate -/

set_option maxHeartbeats 1000000 in
/-- A middle point: the accumulator takes this point's partial product added to what it held; the output buffer is not touched. -/
theorem kernel4_mid (c : Dev nD) (E : Set ℕ) (i : grid4.Coords) (arg2 : Memref sig .tc .vmem S1000x64 .f32) (harg2 : arg2.IsWhole)
    (arg3 : Memref sig .tc .vmem S2400x1 .i32) (harg3 : arg3.IsWhole)
    (arg4 : Memref sig .tc .vmem S2400x64 .bf16) (harg4 : arg4.IsWhole)
    (arg5 : Memref sig .tc .vmem S2400x64 .f32) (harg5 : arg5.IsWhole)
    (hc0 : ¬cond4_0 i) (hc1 : ¬cond4_1 i)
    (x0 : Vec F S1000x64 .f32) (x1 : Vec F S2400x1 .i32) (xo : Vec F S2400x64 .bf16) (s : Vec F S2400x64 .f32)
    (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare s
        ∗ (iprop(owns (c : Thread nD τ) arg2 fullShare x0 ∗ owns (c : Thread nD τ) arg3 fullShare x1
            ∗ owns (c : Thread nD τ) arg4 fullShare xo ∗ owns (c : Thread nD τ) arg5 fullShare (k4_pay2 i x1 x0 s)) -∗ K ⟨⟩))
      ⊢ wp frame (wpE (defs₀ (F := F)) Variants.none c none) E (cc4__gather_kernel i arg2 harg2 arg3 harg3 arg4 harg4 arg5 harg5) K := by
  simp only [cc4__gather_kernel_eq_skeleton]; unfold cc4__gather_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_run_names
  rw [kernel4_read_store]
  rw [kernel4_readAt_idx, kernel4_readAt_data, kernel4_readAt_acc]

set_option maxHeartbeats 1000000 in
/-- A point with inner coordinate zero: the accumulator, whatever it held, is zeroed and takes this point's partial product; the output buffer is not touched. -/
theorem kernel4_first (c : Dev nD) (E : Set ℕ) (i : grid4.Coords) (arg2 : Memref sig .tc .vmem S1000x64 .f32) (harg2 : arg2.IsWhole)
    (arg3 : Memref sig .tc .vmem S2400x1 .i32) (harg3 : arg3.IsWhole)
    (arg4 : Memref sig .tc .vmem S2400x64 .bf16) (harg4 : arg4.IsWhole)
    (arg5 : Memref sig .tc .vmem S2400x64 .f32) (harg5 : arg5.IsWhole)
    (hc0 : cond4_0 i) (hc1 : ¬cond4_1 i)
    (x0 : Vec F S1000x64 .f32) (x1 : Vec F S2400x1 .i32) (xo : Vec F S2400x64 .bf16)
    (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo ∗ owns (c : Thread nD τ) arg5 fullShare (k4_pay2 i x1 x0 k4_pay1)) -∗ K ⟨⟩))
      ⊢ wp frame (wpE (defs₀ (F := F)) Variants.none c none) E (cc4__gather_kernel i arg2 harg2 arg3 harg3 arg4 harg4 arg5 harg5) K := by
  simp only [cc4__gather_kernel_eq_skeleton]; unfold cc4__gather_kernel_skel
  unfold owns
  iintro ⟨⟨%f0, %hf0, H0⟩, ⟨%f1, %hf1, H1⟩, ⟨%fo, %hfo, HO⟩, ⟨%d, %fs, -, HS⟩, Hk⟩
  subst hf0; subst hf1; subst hfo
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_run_names
  rw [kernel4_read_store]
  rw [kernel4_readAt_idx, kernel4_readAt_data, kernel4_readCov_store]

set_option maxHeartbeats 1000000 in
/-- A point with the last inner coordinate: the accumulator takes this point's partial product added to what it held, and the output buffer, whatever it held, the accumulator rounded. -/
theorem kernel4_last (c : Dev nD) (E : Set ℕ) (i : grid4.Coords) (arg2 : Memref sig .tc .vmem S1000x64 .f32) (harg2 : arg2.IsWhole)
    (arg3 : Memref sig .tc .vmem S2400x1 .i32) (harg3 : arg3.IsWhole)
    (arg4 : Memref sig .tc .vmem S2400x64 .bf16) (harg4 : arg4.IsWhole)
    (arg5 : Memref sig .tc .vmem S2400x64 .f32) (harg5 : arg5.IsWhole)
    (hc0 : ¬cond4_0 i) (hc1 : cond4_1 i)
    (x0 : Vec F S1000x64 .f32) (x1 : Vec F S2400x1 .i32) (s : Vec F S2400x64 .f32)
    (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k4_pay3 (k4_pay2 i x1 x0 s))
            ∗ owns (c : Thread nD τ) arg5 fullShare (k4_pay2 i x1 x0 s)) -∗ K ⟨⟩))
      ⊢ wp frame (wpE (defs₀ (F := F)) Variants.none c none) E (cc4__gather_kernel i arg2 harg2 arg3 harg3 arg4 harg4 arg5 harg5) K := by
  simp only [cc4__gather_kernel_eq_skeleton]; unfold cc4__gather_kernel_skel
  unfold owns
  iintro ⟨⟨%f0, %hf0, H0⟩, ⟨%f1, %hf1, H1⟩, ⟨%d, %fo, -, HO⟩, ⟨%fs, %hfs, HS⟩, Hk⟩
  subst hf0; subst hf1; subst hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_run_names
    rw [kernel4_read_store]
    rw [kernel4_readCov_store, kernel4_readAt_idx, kernel4_readAt_data, kernel4_readAt_acc]
  iexists _; isplitr
  swap; · iexact HS
  ipureintro
  sl_unfold_run_names
  rw [kernel4_read_store]
  rw [kernel4_readAt_idx, kernel4_readAt_data, kernel4_readAt_acc]

/- The buffer contents the region is entered from: a parameter. -/
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator scratch as a whole memref. -/
abbrev scM4 : Memref sig .tc .vmem S2400x64 .f32 := Memref.whole cc4_scratch0

/-- What the accumulator holds after the body at point `n`: the partial one-hot product of this point added to
    zero at the first node block of an edge block, to what the point before left otherwise. -/
def acc4 (c : Dev nD) : (n : ℕ) → n < cfg4.N → Vec F S2400x64 .f32
  | 0, hn => k4_pay2 (grid4.coords ⟨0, hn⟩) (iblk4 V c 1 ⟨0, hn⟩) (iblk4 V c 0 ⟨0, hn⟩) k4_pay1
  | n + 1, hn => k4_pay2 (grid4.coords ⟨n + 1, hn⟩) (iblk4 V c 1 ⟨n + 1, hn⟩) (iblk4 V c 0 ⟨n + 1, hn⟩)
      (if (n + 1) % 50 = 0 then k4_pay1 else acc4 c n (Nat.lt_of_succ_lt hn))

/-- The region invariant before position `n`: before the first point the scoped rest at anything; afterwards the
    accumulator at what the point before left, the other scoped buffers at anything. -/
def PhiS4 (c : Dev nD) : (n : ℕ) → n ≤ cfg4.N → sProp 𝕄
  | 0, _ => Pipeline.ΦA spec4 c
  | n + 1, hn => iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r))

/-- The proof data of pipeline 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (acc4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := by dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay3 (acc4 V c t.val t.isLt) := by dsimp only [dat4]

/-! ## The inner grid coordinate and the body's two conditions in closed form -/

/-- The inner coordinate of point `t` is `t` modulo the inner extent. -/
theorem grid4_inner (t : Fin cfg4.N) : ((grid4.coords t) 1).val = t.val % 50 := by
  show t.val / grid4.stride 1 % grid4.bound 1 = t.val % 50
  have hs : grid4.stride 1 = 1 := by decide
  rw [hs, Nat.div_one]; rfl

/-- Below the inner extent the first condition's word arithmetic says "is zero", -/
theorem cond4_chain0_iff : ∀ x : ℕ, x < 50 →
    ((Scalar.cmpi .ne (Scalar.extui (Scalar.cmpi .eq (BitVec.ofNat 32 x) 0#32)) 0#32) = 1#1 ↔ x = 0) := by decide
/-- and the second's "is the last". -/
theorem cond4_chain49_iff : ∀ x : ℕ, x < 50 →
    ((Scalar.cmpi .ne (Scalar.extui (Scalar.cmpi .eq (BitVec.ofNat 32 x) 49#32)) 0#32) = 1#1 ↔ x = 49) := by decide

theorem hcond4_0 (t : Fin cfg4.N) : cond4_0 (grid4.coords t) ↔ t.val % 50 = 0 :=
  (cond4_chain0_iff _ ((grid4.coords t) 1).isLt).trans (by rw [grid4_inner])

theorem hcond4_1 (t : Fin cfg4.N) : cond4_1 (grid4.coords t) ↔ t.val % 50 = 49 :=
  (cond4_chain49_iff _ ((grid4.coords t) 1).isLt).trans (by rw [grid4_inner])

/-! ## Where the windows are idle -/

theorem liveAt4_0 (t : Fin cfg4.N) : cfg4.idle 0 (grid4.coords t) = false := rfl
theorem liveAt4_1 (t : Fin cfg4.N) : cfg4.idle 1 (grid4.coords t) = false := rfl
/-- Off the last inner coordinate the output window is idle, -/
theorem idle4_2 (t : Fin cfg4.N) (h : ¬cond4_1 (grid4.coords t)) : cfg4.idle 2 (grid4.coords t) = true := by
  show (!(k4_cond2 (grid4.coords t) == 1#1)) = true
  rw [Bool.not_eq_true', beq_eq_false_iff_ne]; exact h
/-- and its block is not written back; -/
theorem noFlush4_2 (t : Fin cfg4.N) (h : ¬t.val % 50 = 49) : (cfg4.win 2).flush t = false :=
  Bool.eq_false_iff.mpr fun hf => h ((flush4_2 t).mp hf)
/-- at the last it is live. -/
theorem liveAt4_2 (t : Fin cfg4.N) (h : cond4_1 (grid4.coords t)) : cfg4.idle 2 (grid4.coords t) = false := by
  show (!(k4_cond2 (grid4.coords t) == 1#1)) = false
  rw [show k4_cond2 (grid4.coords t) = 1#1 from h]; rfl

/-! ## What the body finds in the input windows' buffers -/

/-- The data window's buffer holds its block at every point. -/
theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-- The index window's buffer holds its block at every point, fetched there or not. -/
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-! ## The accumulator and the invariant, point by point -/

theorem acc4_first (c : Dev nD) (t : Fin cfg4.N) (h0 : t.val % 50 = 0) :
    acc4 V c t.val t.isLt = k4_pay2 (grid4.coords t) (iblk4 V c 1 t) (iblk4 V c 0 t) k4_pay1 := by
  obtain ⟨n, hn⟩ := t
  cases n with
  | zero => rfl
  | succ n =>
    have h0' : (n + 1) % 50 = 0 := h0
    show k4_pay2 _ _ _ (if (n + 1) % 50 = 0 then _ else _) = _
    rw [if_pos h0']

theorem acc4_next (c : Dev nD) (t : Fin cfg4.N) (h0 : ¬t.val % 50 = 0) :
    acc4 V c t.val t.isLt = k4_pay2 (grid4.coords t) (iblk4 V c 1 t) (iblk4 V c 0 t)
      (acc4 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 50 = 0 := h0
    show k4_pay2 _ _ _ (if (n + 1) % 50 = 0 then _ else _) = _
    rw [if_neg h0']; rfl

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r)) := rfl

theorem PhiS4_pos (c : Dev nD) (n : ℕ) (h : n ≤ cfg4.N) (hz : n ≠ 0) :
    PhiS4 V c n h = iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

theorem PhiS4_castSucc (c : Dev nD) (t : Fin cfg4.N) :
    (dat4 V c).Φ t.castSucc = PhiS4 V c t.val (Nat.le_of_lt t.isLt) := by
  dsimp only [dat4]; simp only [Fin.coe_castSucc]

/-- The launch's invariant with the accumulator as a memref owned at some contents. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; try rfl

/-! ## The body obligation -/

abbrev ms4_0 (t : Fin cfg4.N) : Memref sig .tc .vmem S1000x64 .f32 := win4_0.stage (cfg4.slots t 0)
abbrev ms4_1 (t : Fin cfg4.N) : Memref sig .tc .vmem S2400x1 .i32 := win4_1.stage (cfg4.slots t 1)
abbrev ms4_2 (t : Fin cfg4.N) : Memref sig .tc .vmem S2400x64 .bf16 := win4_2.stage (cfg4.slots t 2)

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point, by the inner coordinate: first, last or in between. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 50 = 0
  · have h1 : ¬t.val % 50 = 49 := by omega
    have hc0 : cond4_0 (grid4.coords t) := (hcond4_0 t).mpr h0
    have hc1 : ¬cond4_1 (grid4.coords t) := fun h => h1 ((hcond4_1 t).mp h)
    rw [Dat.leavesExact_idle (dat4 V c) 2 t (idle4_2 t hc1) (noFlush4_2 t h1)]
    rw [acc4_first V c t h0]
    by_cases hz : t.val = 0
    · rw [PhiS4_castSucc V c t, PhiS4_zero V c _ _ hz, PhiA4_eq]
      iintro ⟨⟨⟨⟨%ds, HS⟩, HR⟩, Hg⟩, Ho, ⟨%d0, H0⟩, ⟨%d1, H1⟩, ⟨%d2, H2⟩⟩
      iapply (kernel4_first c Set.univ (grid4.coords t) _ _ _ _ _ _ _ _ hc0 hc1 (iblk4 V c 0 t) (iblk4 V c 1 t) ((dat4 V c).before 2 t d2) _)
      isplitl [H0]; · iexact H0
      isplitl [H1]; · iexact H1
      isplitl [H2]; · iexact H2
      isplitl [HS]; · iexists ds; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists d2; iexact H2
    · rw [PhiS4_castSucc V c t, PhiS4_pos V c _ _ hz]
      iintro ⟨⟨HS, HR, Hg⟩, Ho, ⟨%d0, H0⟩, ⟨%d1, H1⟩, ⟨%d2, H2⟩⟩
      iapply (kernel4_first c Set.univ (grid4.coords t) _ _ _ _ _ _ _ _ hc0 hc1 (iblk4 V c 0 t) (iblk4 V c 1 t) ((dat4 V c).before 2 t d2) _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists d2; iexact H2
  · have hz : t.val ≠ 0 := fun e => h0 (by rw [e])
    have hc0 : ¬cond4_0 (grid4.coords t) := fun h => h0 ((hcond4_0 t).mp h)
    rw [acc4_next V c t h0]
    rw [PhiS4_castSucc V c t, PhiS4_pos V c _ _ hz]
    by_cases h1 : t.val % 50 = 49
    · have hc1 : cond4_1 (grid4.coords t) := (hcond4_1 t).mpr h1
      rw [show (dat4 V c).leavesExact 2 t = owns (c : Thread nD τ) (ms4_2 t) fullShare ((dat4 V c).after 2 t) from by
        unfold Dat.leavesExact; rw [liveAt4_2 t hc1], after4_2, acc4_next V c t h0]
      iintro ⟨⟨HS, HR, Hg⟩, Ho, ⟨%d0, H0⟩, ⟨%d1, H1⟩, ⟨%d2, H2⟩⟩
      iapply (kernel4_last c Set.univ (grid4.coords t) _ _ _ _ _ _ _ _ hc0 hc1 (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond4_1 (grid4.coords t) := fun h => h1 ((hcond4_1 t).mp h)
      rw [Dat.leavesExact_idle (dat4 V c) 2 t (idle4_2 t hc1) (noFlush4_2 t h1)]
      iintro ⟨⟨HS, HR, Hg⟩, Ho, ⟨%d0, H0⟩, ⟨%d1, H1⟩, ⟨%d2, H2⟩⟩
      iapply (kernel4_mid c Set.univ (grid4.coords t) _ _ _ _ _ _ _ _ hc0 hc1 (iblk4 V c 0 t) (iblk4 V c 1 t) ((dat4 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists d2; iexact H2

/-- The body obligation at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]

/-- After the last point the invariant gives the scoped rest back, the accumulator's contents forgotten. -/
theorem hout4 (c : Dev nD) : (dat4 V c).Φ (Fin.last cfg4.N) ⊢ Pipeline.ΦA spec4 c := by
  have hN : (Fin.last cfg4.N).val ≠ 0 := by
    rw [Fin.val_last]; have : cfg4.N = 12500 := N_4; omega
  rw [show (dat4 V c).Φ (Fin.last cfg4.N) = PhiS4 V c (Fin.last cfg4.N).val (Nat.le_of_lt_succ (Fin.last cfg4.N).isLt) from rfl,
    PhiS4_pos V c _ _ hN, PhiA4_eq]
  iintro ⟨HS, HR, Hg⟩
  isplitl [HS HR]
  · isplitl [HS]
    · iexists _; iexact HS
    iexact HR
  iexact Hg

end Cert.KernelIdeal.Hand

end
-- ==== Proof.KI.ScatterBody5.lean ====
/- Region 5 (the one-hot scatter-add with the degree scaling, the bias and the rectifier): proof data and body obligation. -/
import proofs.«411707_j25580825215441_1_alg».proof.Proof.Gen.KernelIdeal.Launch
import proofs.«411707_j25580825215441_1_alg».proof.Proof.Gen.KernelIdeal.Skeleton
import proofs.«411707_j25580825215441_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents the region is entered from: a parameter. -/
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The accumulator scratch as a whole memref. -/
abbrev scM5 : Memref sig .tc .vmem S1000x64 .f32 := Memref.whole cc5_scratch0

/-- What the accumulator holds after the body at point `n`: the one-hot product of this edge block added to
    zero at the first edge block of a node block, to what the point before left otherwise. -/
def acc5 (c : Dev nD) : (n : ℕ) → n < cfg5.N → Vec F S1000x64 .f32
  | 0, hn => k5_pay2 (grid5.coords ⟨0, hn⟩) (iblk5 V c 1 ⟨0, hn⟩) (iblk5 V c 0 ⟨0, hn⟩) k5_pay1
  | n + 1, hn => k5_pay2 (grid5.coords ⟨n + 1, hn⟩) (iblk5 V c 1 ⟨n + 1, hn⟩) (iblk5 V c 0 ⟨n + 1, hn⟩)
      (if (n + 1) % 250 = 0 then k5_pay1 else acc5 c n (Nat.lt_of_succ_lt hn))

/-- The region invariant before position `n`: before the first point the scoped rest at anything; afterwards the
    accumulator at what the point before left, the other scoped buffers at anything. -/
def PhiS5 (c : Dev nD) : (n : ℕ) → n ≤ cfg5.N → sProp 𝕄
  | 0, _ => Pipeline.ΦA spec5 c
  | n + 1, hn => iprop(owns (c : Thread nD τ) scM5 fullShare (acc5 V c n hn)
      ∗ Pipeline.scopedRestBut (Ix := Unit) (Name := ℕ) (U := UR sig nD τ) (Lvl := ℕ) (Val := Elt F) spec5 c [cc5_scratch0]
      ∗ (∃ r, prngReg c r))

/-- The proof data of pipeline 5 on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay3 (acc5 V c t.val t.isLt) (iblk5 V c 2 t) (iblk5 V c 3 t)
  Φ t := PhiS5 V c t.val (Nat.le_of_lt_succ t.isLt)
  q _ := fullShare
  owed _ := 0

theorem A_eq5 (c : Dev nD) (w : Fin cfg5.W) : (dat5 V c).A w = V c (Pipeline.arrRef spec5 w) := by dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = k5_pay3 (acc5 V c t.val t.isLt) (iblk5 V c 2 t) (iblk5 V c 3 t) := by dsimp only [dat5]

/-! ## The body's branch conditions -/

/-- The first conditional's condition (the inner grid coordinate is zero), from the grid coordinates. -/
abbrev cond5_0 (i : grid5.Coords) : Prop :=
  (Scalar.cmpi .ne (Scalar.extui (Scalar.cmpi .eq (BitVec.ofNat 32 (i 1).val) 0#32)) 0#32) = 1#1

/-- The last conditional's condition (the inner grid coordinate is the last one). -/
abbrev cond5_1 (i : grid5.Coords) : Prop := k5_cond2 i = 1#1

/-! ## The body's accesses -/

/-- The whole-buffer rectangle's offsets are zero. -/
theorem acc5_off : (![0, 0] : Fin 2 → ℕ) = fun _ => 0 := funext fun a => by fin_cases a <;> rfl

/-- The whole accumulator, as the rectangle the body loads and stores it through. -/
abbrev acc5_rect : Rect S1000x64 := Rect.unit (s := S1000x64) ![0, 0] S1000x64.size inb_S1000x64_S1000x64_0_0

/-- A list of stores whose last one goes through the whole rectangle covers the buffer. -/
theorem acc5_cover (w : Vec F S1000x64 .f32) (L : List (View.Piece (Elt F) S1000x64 .f32)) (y : S1000x64.Idx) :
    ∃ pc ∈ ((⟨acc5_rect, w⟩ : View.Piece (Elt F) S1000x64 .f32) :: L), y ∈ pc.1.set :=
  ⟨_, List.mem_cons_self, View.mem_set_unit_zero acc5_off inb_S1000x64_S1000x64_0_0 y⟩

/-! ## The body's triple, one per control case -/

set_option maxHeartbeats 2000000 in
/-- At a point whose inner coordinate is the first (and not the last): the accumulator, found at anything, is zeroed
    and left at the point's one-hot product added to the zeros. -/
theorem sound_kernel5_A (c : Dev nD) (E : Set ℕ) (i : grid5.Coords) (arg2 : Memref sig .tc .vmem S2400x64 .bf16) (harg2 : arg2.IsWhole) (arg3 : Memref sig .tc .vmem S2400x1 .i32) (harg3 : arg3.IsWhole) (arg4 : Memref sig .tc .vmem S1000x1 .f32) (harg4 : arg4.IsWhole) (arg5 : Memref sig .tc .vmem S1x64 .f32) (harg5 : arg5.IsWhole) (arg6 : Memref sig .tc .vmem S1000x64 .f32) (harg6 : arg6.IsWhole) (arg7 : Memref sig .tc .vmem S1000x64 .f32) (harg7 : arg7.IsWhole)
    (hc0 : cond5_0 i) (hc1 : ¬cond5_1 i)
    (x0 : Vec F S2400x64 .bf16) (x1 : Vec F S2400x1 .i32) (K : PUnit → sProp 𝕄) :
    iprop(owns (c : Thread nD τ) arg2 fullShare x0 ∗ owns (c : Thread nD τ) arg3 fullShare x1 ∗ (∃ s, owns (c : Thread nD τ) arg7 fullShare s)
        ∗ (iprop(owns (c : Thread nD τ) arg2 fullShare x0 ∗ owns (c : Thread nD τ) arg3 fullShare x1
            ∗ owns (c : Thread nD τ) arg7 fullShare (k5_pay2 i x1 x0 k5_pay1)) -∗ K ⟨⟩))
      ⊢ wp frame (wpE (defs₀ (F := F)) Variants.none c none) E (cc5__scatter_kernel i arg2 harg2 arg3 harg3 arg4 harg4 arg5 harg5 arg6 harg6 arg7 harg7) K := by
  simp only [cc5__scatter_kernel_eq_skeleton]; unfold cc5__scatter_kernel_skel
  unfold owns
  iintro ⟨⟨%f0, %hf0, H0⟩, ⟨%f1, %hf1, H1⟩, ⟨%s, %fs, -, HS⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (acc5_cover _ _), View.canon_cons_unit_zero (S := S1000x64) acc5_off,
    View.readCov_unit_zero (S := S1000x64) _ acc5_off]
  rw [View.readAt_eq_ld, View.readAt_eq_ld, View.ld_unit_zero (S := S2400x1) acc5_off, View.ld_unit_zero (S := S2400x64) acc5_off]

set_option maxHeartbeats 2000000 in
/-- At a point whose inner coordinate is neither the first nor the last: the accumulator, found at `s`, is left at
    the point's one-hot product added to `s`; the index block and the data block are read and left as found. -/
theorem sound_kernel5_B (c : Dev nD) (E : Set ℕ) (i : grid5.Coords) (arg2 : Memref sig .tc .vmem S2400x64 .bf16) (harg2 : arg2.IsWhole) (arg3 : Memref sig .tc .vmem S2400x1 .i32) (harg3 : arg3.IsWhole) (arg4 : Memref sig .tc .vmem S1000x1 .f32) (harg4 : arg4.IsWhole) (arg5 : Memref sig .tc .vmem S1x64 .f32) (harg5 : arg5.IsWhole) (arg6 : Memref sig .tc .vmem S1000x64 .f32) (harg6 : arg6.IsWhole) (arg7 : Memref sig .tc .vmem S1000x64 .f32) (harg7 : arg7.IsWhole)
    (hc0 : ¬cond5_0 i) (hc1 : ¬cond5_1 i)
    (x0 : Vec F S2400x64 .bf16) (x1 : Vec F S2400x1 .i32) (s : Vec F S1000x64 .f32) (K : PUnit → sProp 𝕄) :
    iprop(owns (c : Thread nD τ) arg2 fullShare x0 ∗ owns (c : Thread nD τ) arg3 fullShare x1 ∗ owns (c : Thread nD τ) arg7 fullShare s
        ∗ (iprop(owns (c : Thread nD τ) arg2 fullShare x0 ∗ owns (c : Thread nD τ) arg3 fullShare x1
            ∗ owns (c : Thread nD τ) arg7 fullShare (k5_pay2 i x1 x0 s)) -∗ K ⟨⟩))
      ⊢ wp frame (wpE (defs₀ (F := F)) Variants.none c none) E (cc5__scatter_kernel i arg2 harg2 arg3 harg3 arg4 harg4 arg5 harg5 arg6 harg6 arg7 harg7) K := by
  simp only [cc5__scatter_kernel_eq_skeleton]; unfold cc5__scatter_kernel_skel
  unfold owns
  iintro ⟨⟨%f0, %hf0, H0⟩, ⟨%f1, %hf1, H1⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (acc5_cover _ _), View.canon_unit_zero acc5_off]
  rw [View.readAt_eq_ld, View.readAt_eq_ld, View.readAt_eq_ld, View.ld_unit_zero (S := S2400x1) acc5_off, View.ld_unit_zero (S := S2400x64) acc5_off, View.ld_unit_zero (S := S1000x64) acc5_off]

set_option maxHeartbeats 2000000 in
/-- At a point whose inner coordinate is the last (and not the first): the accumulator, found at `s`, is left at
    the point's one-hot product added to `s`, and the output block at that, scaled, biased and rectified. -/
theorem sound_kernel5_C (c : Dev nD) (E : Set ℕ) (i : grid5.Coords) (arg2 : Memref sig .tc .vmem S2400x64 .bf16) (harg2 : arg2.IsWhole) (arg3 : Memref sig .tc .vmem S2400x1 .i32) (harg3 : arg3.IsWhole) (arg4 : Memref sig .tc .vmem S1000x1 .f32) (harg4 : arg4.IsWhole) (arg5 : Memref sig .tc .vmem S1x64 .f32) (harg5 : arg5.IsWhole) (arg6 : Memref sig .tc .vmem S1000x64 .f32) (harg6 : arg6.IsWhole) (arg7 : Memref sig .tc .vmem S1000x64 .f32) (harg7 : arg7.IsWhole)
    (hc0 : ¬cond5_0 i) (hc1 : cond5_1 i)
    (x0 : Vec F S2400x64 .bf16) (x1 : Vec F S2400x1 .i32) (x2 : Vec F S1000x1 .f32) (x3 : Vec F S1x64 .f32)
    (s : Vec F S1000x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k5_pay3 (k5_pay2 i x1 x0 s) x2 x3)
            ∗ owns (c : Thread nD τ) arg7 fullShare (k5_pay2 i x1 x0 s)) -∗ K ⟨⟩))
      ⊢ wp frame (wpE (defs₀ (F := F)) Variants.none c none) E (cc5__scatter_kernel i arg2 harg2 arg3 harg3 arg4 harg4 arg5 harg5 arg6 harg6 arg7 harg7) K := by
  simp only [cc5__scatter_kernel_eq_skeleton]; unfold cc5__scatter_kernel_skel
  unfold owns
  iintro ⟨⟨%f0, %hf0, H0⟩, ⟨%f1, %hf1, H1⟩, ⟨%f2, %hf2, H2⟩, ⟨%f3, %hf3, H3⟩, ⟨%d, %f4, -, H4⟩, ⟨%fs, %hfs, HS⟩, Hk⟩
  subst hf0 hf1 hf2 hf3 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (acc5_cover _ _), View.canon_unit_zero acc5_off,
      View.readCov_unit_zero (S := S1000x64) _ acc5_off]
    rw [View.readAt_eq_ld, View.readAt_eq_ld, View.readAt_eq_ld, View.readAt_eq_ld, View.readAt_eq_ld,
      View.ld_unit_zero (S := S2400x1) acc5_off, View.ld_unit_zero (S := S2400x64) acc5_off, View.ld_unit_zero (S := S1000x64) acc5_off,
      View.ld_unit_zero (S := S1000x1) acc5_off, View.ld_unit_zero (S := S1x64) acc5_off]
  iexists _; isplitr
  swap; · iexact HS
  ipureintro
  sl_unfold_run_names
  rw [View.read_writes_eq_canon _ _ _ (acc5_cover _ _), View.canon_unit_zero acc5_off]
  rw [View.readAt_eq_ld, View.readAt_eq_ld, View.readAt_eq_ld, View.ld_unit_zero (S := S2400x1) acc5_off, View.ld_unit_zero (S := S2400x64) acc5_off, View.ld_unit_zero (S := S1000x64) acc5_off]

/-! ## The conditions in closed form; where the output window is idle -/

/-- The first conditional is taken at the points ≡ 0 (mod 250): decided over the grid. -/
theorem hcond5_0 : ∀ t : Fin cfg5.N, cond5_0 (grid5.coords t) ↔ t.val % 250 = 0 :=
  (by decide +kernel : ∀ t : Fin grid5.N, cond5_0 (grid5.coords t) ↔ t.val % 250 = 0)

/-- The last conditional is taken at the points ≡ 249 (mod 250): decided over the grid. -/
theorem hcond5_1 : ∀ t : Fin cfg5.N, cond5_1 (grid5.coords t) ↔ t.val % 250 = 249 :=
  (by decide +kernel : ∀ t : Fin grid5.N, cond5_1 (grid5.coords t) ↔ t.val % 250 = 249)

/-- Where the last conditional is not taken the output window is idle. -/
theorem idleAt5_4 (t : Fin cfg5.N) (h : ¬cond5_1 (grid5.coords t)) : cfg5.idle 4 (cfg5.grid.coords t) = true := by
  show (!(k5_cond2 (grid5.coords t) == 1#1)) = true
  rw [Bool.not_eq_true', beq_eq_false_iff_ne]; exact h

/-- Where it is taken the output window is live. -/
theorem liveAt5_4 (t : Fin cfg5.N) (h : cond5_1 (grid5.coords t)) : cfg5.idle 4 (cfg5.grid.coords t) = false := by
  show (!(k5_cond2 (grid5.coords t) == 1#1)) = false
  rw [show k5_cond2 (grid5.coords t) = 1#1 from h]; rfl

/-! ## The accumulator, point by point -/

/-- At the first edge block of a node block the accumulator is the point's product added to zeros. -/
theorem acc5_first (c : Dev nD) (t : Fin cfg5.N) (h0 : t.val % 250 = 0) :
    acc5 V c t.val t.isLt = k5_pay2 (grid5.coords t) (iblk5 V c 1 t) (iblk5 V c 0 t) k5_pay1 := by
  obtain ⟨n, hn⟩ := t
  cases n with
  | zero => rfl
  | succ n =>
    show k5_pay2 _ _ _ (if (n + 1) % 250 = 0 then k5_pay1 else acc5 V c n _) = _
    rw [if_pos h0]

/-- At any other the point's product added to what the point before left. -/
theorem acc5_next (c : Dev nD) (t : Fin cfg5.N) (h0 : ¬t.val % 250 = 0) :
    acc5 V c t.val t.isLt = k5_pay2 (grid5.coords t) (iblk5 V c 1 t) (iblk5 V c 0 t)
      (acc5 V c (t.val - 1) (Nat.lt_of_le_of_lt (Nat.sub_le _ _) t.isLt)) := by
  obtain ⟨n, hn⟩ := t
  cases n with
  | zero => exact absurd (Nat.zero_mod _) h0
  | succ n =>
    show k5_pay2 _ _ _ (if (n + 1) % 250 = 0 then k5_pay1 else acc5 V c n _) = _
    rw [if_neg h0]; rfl

/-! ## The invariant, position by position -/

theorem PhiS5_succ (c : Dev nD) (n : ℕ) (hn : n < cfg5.N) :
    PhiS5 V c (n + 1) hn = iprop(owns (c : Thread nD τ) scM5 fullShare (acc5 V c n hn)
      ∗ Pipeline.scopedRestBut (Ix := Unit) (Name := ℕ) (U := UR sig nD τ) (Lvl := ℕ) (Val := Elt F) spec5 c [cc5_scratch0]
      ∗ (∃ r, prngReg c r)) := rfl

/-- Before a position that is not the first: the accumulator at what the point before left. -/
theorem PhiS5_pos (c : Dev nD) (n : ℕ) (h : n ≤ cfg5.N) (hz : n ≠ 0) :
    PhiS5 V c n h = iprop(owns (c : Thread nD τ) scM5 fullShare (acc5 V c (n - 1) (by omega))
      ∗ Pipeline.scopedRestBut (Ix := Unit) (Name := ℕ) (U := UR sig nD τ) (Lvl := ℕ) (Val := Elt F) spec5 c [cc5_scratch0]
      ∗ (∃ r, prngReg c r)) := by
  cases n with
  | zero => exact absurd rfl hz
  | succ n => rfl

/-- What the launch hands the region, with the accumulator split off the scoped rest as a memref owned at something. -/
theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0])
        ∗ (∃ r, prngReg c r)) := by
  unfold Pipeline.ΦA; rw [scopedRest5_split]; simp only [scM5, owns_whole]; rfl

/-- At any position the invariant gives the accumulator at something, the other scoped buffers and the generator register. -/
theorem PhiS5_any (c : Dev nD) (n : ℕ) (h : n ≤ cfg5.N) :
    PhiS5 V c n h ⊢ iprop((∃ s, owns (c : Thread nD τ) scM5 fullShare s)
      ∗ Pipeline.scopedRestBut (Ix := Unit) (Name := ℕ) (U := UR sig nD τ) (Lvl := ℕ) (Val := Elt F) spec5 c [cc5_scratch0]
      ∗ (∃ r, prngReg c r)) := by
  cases n with
  | zero =>
    rw [show PhiS5 V c 0 h = Pipeline.ΦA spec5 c from rfl, PhiA5_eq]
    iintro ⟨⟨HS, HR⟩, Hg⟩
    isplitl [HS]; · iexact HS
    isplitl [HR]; · iexact HR
    iexact Hg
  | succ n =>
    rw [PhiS5_succ]
    iintro ⟨HS, HR, Hg⟩
    isplitl [HS]; · iexists _; iexact HS
    isplitl [HR]; · iexact HR
    iexact Hg

/-! ## The windows' blocks at a point -/

/-- Each input's current staging buffer holds its block at every point, fetched there or not. -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

/-- Where the pipeline does not write the output block back. -/
theorem noFlush5_4 (t : Fin cfg5.N) (h : ¬t.val % 250 = 249) : (cfg5.win 4).flush t = false := by
  cases hf : (cfg5.win 4).flush t with
  | false => rfl
  | true => exact absurd ((flush5_4 t).mp hf) h

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

/-- An input window is never idle: its buffer is handed back at its block. -/
theorem post5_0 (c : Dev nD) (t : Fin cfg5.N) :
    (dat5 V c).leavesExact 0 t = owns (c : Thread nD τ) (st5_0 t) fullShare (iblk5 V c 0 t) := by
  rw [← after5_0]
theorem post5_1 (c : Dev nD) (t : Fin cfg5.N) :
    (dat5 V c).leavesExact 1 t = owns (c : Thread nD τ) (st5_1 t) fullShare (iblk5 V c 1 t) := by
  rw [← after5_1]
theorem post5_2 (c : Dev nD) (t : Fin cfg5.N) :
    (dat5 V c).leavesExact 2 t = owns (c : Thread nD τ) (st5_2 t) fullShare (iblk5 V c 2 t) := by
  rw [← after5_2]
theorem post5_3 (c : Dev nD) (t : Fin cfg5.N) :
    (dat5 V c).leavesExact 3 t = owns (c : Thread nD τ) (st5_3 t) fullShare (iblk5 V c 3 t) := by
  rw [← after5_3]

set_option maxHeartbeats 4000000 in
/-- The body at any point. The inputs' buffers hold their blocks; the closed forms of the two conditions say which
    control case the point is in, and that case's triple applies: the invariant hands it the accumulator (at anything
    where it is zeroed first, at what the point before left elsewhere) and takes it back at this point's contents; the
    output buffer is handed back as found where the window is idle, and holds the finished block where it is live;
    the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [show (dat5 V c).Φ t.castSucc = PhiS5 V c t.val (Nat.le_of_lt t.isLt) from rfl]
  rw [post5_0, post5_1, post5_2, post5_3]
  have hN : t.val < 12500 := lt_of_lt_of_eq t.isLt (show cfg5.N = 12500 from N_5)
  by_cases h0 : t.val % 250 = 0
  · have h1 : ¬t.val % 250 = 249 := by omega
    have hc0 : cond5_0 (grid5.coords t) := (hcond5_0 t).mpr h0
    have hc1 : ¬cond5_1 (grid5.coords t) := fun h => h1 ((hcond5_1 t).mp h)
    rw [Dat.leavesExact_idle (dat5 V c) 4 t (idleAt5_4 t hc1) (noFlush5_4 t h1), acc5_first V c t h0]
    iintro ⟨HΦ, Ho, ⟨%d0, H0⟩, ⟨%d1, H1⟩, ⟨%d2, H2⟩, ⟨%d3, H3⟩, H4⟩
    ihave HΦ' := (PhiS5_any V c _ _) $$ HΦ
    icases HΦ' with ⟨HS, HR, Hg⟩
    iapply (sound_kernel5_A c Set.univ (grid5.coords t) _ _ _ _ _ _ _ _ _ _ _ _ hc0 hc1 (iblk5 V c 0 t) (iblk5 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    have hc0 : ¬cond5_0 (grid5.coords t) := fun h => h0 ((hcond5_0 t).mp h)
    rw [PhiS5_pos V c _ _ hz, acc5_next V c t h0]
    by_cases h1 : t.val % 250 = 249
    · have hc1 : cond5_1 (grid5.coords t) := (hcond5_1 t).mpr h1
      rw [show (dat5 V c).leavesExact 4 t = owns (c : Thread nD τ) (st5_4 t) fullShare ((dat5 V c).after 4 t) from by
        unfold Dat.leavesExact; rw [liveAt5_4 t hc1], after5_4, acc5_next V c t h0]
      iintro ⟨⟨HS, HR, Hg⟩, Ho, ⟨%d0, H0⟩, ⟨%d1, H1⟩, ⟨%d2, H2⟩, ⟨%d3, H3⟩, ⟨%d4, H4⟩⟩
      iapply (sound_kernel5_C c Set.univ (grid5.coords t) _ _ _ _ _ _ _ _ _ _ _ _ hc0 hc1 (iblk5 V c 0 t) (iblk5 V c 1 t)
        (iblk5 V c 2 t) (iblk5 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc1 : ¬cond5_1 (grid5.coords t) := fun h => h1 ((hcond5_1 t).mp h)
      rw [Dat.leavesExact_idle (dat5 V c) 4 t (idleAt5_4 t hc1) (noFlush5_4 t h1)]
      iintro ⟨⟨HS, HR, Hg⟩, Ho, ⟨%d0, H0⟩, ⟨%d1, H1⟩, ⟨%d2, H2⟩, ⟨%d3, H3⟩, H4⟩
      iapply (sound_kernel5_B c Set.univ (grid5.coords t) _ _ _ _ _ _ _ _ _ _ _ _ hc0 hc1 (iblk5 V c 0 t) (iblk5 V c 1 t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4

/-- The body obligation at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl]
  exact Idealize.SL.BI.Entails.refl _

/-- After the last point the invariant gives the scoped rest back, the accumulator's contents forgotten. -/
theorem hout5 (c : Dev nD) : (dat5 V c).Φ (Fin.last cfg5.N) ⊢ Pipeline.ΦA spec5 c := by
  rw [show (dat5 V c).Φ (Fin.last cfg5.N) = PhiS5 V c cfg5.N (Nat.le_refl _) from rfl, PhiA5_eq]
  refine (PhiS5_any V c _ _).trans ?_
  iintro ⟨HS, HR, Hg⟩
  isplitl [HS HR]
  · isplitl [HS]; · iexact HS
    iexact HR
  iexact Hg

end Cert.KernelIdeal.Hand

end
-- ==== Proof.KI.Run.lean ====
import proofs.«411707_j25580825215441_1_alg».proof.Proof.Gen.KernelIdeal.Launch
import proofs.«411707_j25580825215441_1_alg».proof.Proof.Gen.KernelIdeal.Skeleton
import proofs.«411707_j25580825215441_1_alg».proof.Proof.Gen.KernelIdeal.Points
import proofs.«411707_j25580825215441_1_alg».proof.Proof.KI.LinBody0
import proofs.«411707_j25580825215441_1_alg».proof.Proof.KI.GatherBody1
import proofs.«411707_j25580825215441_1_alg».proof.Proof.KI.ScatterBody2
import proofs.«411707_j25580825215441_1_alg».proof.Proof.KI.LinBody3
import proofs.«411707_j25580825215441_1_alg».proof.Proof.KI.GatherBody4
import proofs.«411707_j25580825215441_1_alg».proof.Proof.KI.ScatterBody5
import proofs.«411707_j25580825215441_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V10 m outs c) ∗ E 4 c) ⊢ R4.pre c)
    (hpost4 : ∀ c : Dev nD, R4.post c ⊢ iprop(StableHlo.held (c : Thread nD τ) (Pipeline.ucRefs τ sig) (V11 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V12 m outs c) ∗ E 5 c) ⊢ R5.pre c)
    (hpost5 : ∀ c : Dev nD, R5.post c ⊢ iprop(StableHlo.held (c : Thread nD τ) (Pipeline.ucRefs τ sig) (V13 m outs c) ∗ E 6 c)) :
    θ_run defs (onTc (τ := τ) (main (F := F))) ⟨m, fun _ => 0, ρ⟩ (fun r => ∀ c : Dev nD,
      r.2.mem ((c.tc : Thread nD τ).loc main_v24) = V13 m outs c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, .rfl, .rfl, hpre0 c, (hpost0 c).trans (hpre1 c), hpost1 c, hpre2 c, (hpost2 c).trans (hpre3 c), (hpost3 c).trans (hpre4 c), hpost4 c, hpre5 c, (hpost5 c).trans (sep_mono .rfl (hE6 c))⟩)
    (hinit := ?_) (QY := fun c s => s.mem ((c.tc : Thread nD τ).loc main_v24) = V13 m outs c main_v24 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact ⟨h (Proc.devRef .tc main_v24) (Finset.mem_filter.mpr ⟨StableHlo.devRef_mem_tcRefs main_v24, by decide⟩),
        (h (Proc.devRef .tc main_arg0) (Finset.mem_filter.mpr ⟨StableHlo.devRef_mem_tcRefs main_arg0, by decide⟩)).trans (V13_main_arg0 m outs c),
        (h (Proc.devRef .tc main_arg1) (Finset.mem_filter.mpr ⟨StableHlo.devRef_mem_tcRefs main_arg1, by decide⟩)).trans (V13_main_arg1 m outs c),
        (h (Proc.devRef .tc main_arg2) (Finset.mem_filter.mpr ⟨StableHlo.devRef_mem_tcRefs main_arg2, by decide⟩)).trans (V13_main_arg2 m outs c),
        (h (Proc.devRef .tc main_arg3) (Finset.mem_filter.mpr ⟨StableHlo.devRef_mem_tcRefs main_arg3, by decide⟩)).trans (V13_main_arg3 m outs c),
        (h (Proc.devRef .tc main_arg4) (Finset.mem_filter.mpr ⟨StableHlo.devRef_mem_tcRefs main_arg4, by decide⟩)).trans (V13_main_arg4 m outs c),
        (h (Proc.devRef .tc main_arg5) (Finset.mem_filter.mpr ⟨StableHlo.devRef_mem_tcRefs main_arg5, by decide⟩)).trans (V13_main_arg5 m outs c),
        (h (Proc.devRef .tc main_arg6) (Finset.mem_filter.mpr ⟨StableHlo.devRef_mem_tcRefs main_arg6, by decide⟩)).trans (V13_main_arg6 m outs c)⟩
    · iexact HSI

abbrev tcOf (W : Dev nD → Valuation τ sig (Elt F)) : (c : Dev nD) → (b : Ref sig .tc) → Buf (Elt F) ((c : Thread nD τ).loc b) :=
  fun c b => W c b

def o6 (c : Dev nD) : Buf (Elt F) ((c : Thread nD τ).loc main_v17) := (dat0 (tcOf (V5 m)) c).arrAt 3 cfg0.N
def X6 (c : Dev nD) : Valuation τ sig (Elt F) := Function.update (V5 m c) main_v17 (o6 m c)

def o7 (c : Dev nD) : Buf (Elt F) ((c : Thread nD τ).loc main_v18) := (dat1 (tcOf (X6 m)) c).arrAt 2 cfg1.N
def X7 (c : Dev nD) : Valuation τ sig (Elt F) := Function.update (X6 m c) main_v18 (o7 m c)
abbrev X8 (c : Dev nD) : Valuation τ sig (Elt F) := StableHlo.after hostOps2 (X7 m c)

def o9 (c : Dev nD) : Buf (Elt F) ((c : Thread nD τ).loc main_v20) := (dat2 (tcOf (X8 m)) c).arrAt 4 cfg2.N
def X9 (c : Dev nD) : Valuation τ sig (Elt F) := Function.update (X8 m c) main_v20 (o9 m c)

def o10 (c : Dev nD) : Buf (Elt F) ((c : Thread nD τ).loc main_v21) := (dat3 (tcOf (X9 m)) c).arrAt 3 cfg3.N
def X10 (c : Dev nD) : Valuation τ sig (Elt F) := Function.update (X9 m c) main_v21 (o10 m c)

def o11 (c : Dev nD) : Buf (Elt F) ((c : Thread nD τ).loc main_v22) := (dat4 (tcOf (X10 m)) c).arrAt 2 cfg4.N
def X11 (c : Dev nD) : Valuation τ sig (Elt F) := Function.update (X10 m c) main_v22 (o11 m c)
abbrev X12 (c : Dev nD) : Valuation τ sig (Elt F) := StableHlo.after hostOps5 (X11 m c)

def o13 (c : Dev nD) : Buf (Elt F) ((c : Thread nD τ).loc main_v24) := (dat5 (tcOf (X12 m)) c).arrAt 4 cfg5.N
def X13 (c : Dev nD) : Valuation τ sig (Elt F) := Function.update (X12 m c) main_v24 (o13 m c)

def outs : Outs (F := F) := fun _ r c =>
  if h : r = main_v17 then h ▸ o6 m c
  else if h : r = main_v18 then h ▸ o7 m c
  else if h : r = main_v20 then h ▸ o9 m c
  else if h : r = main_v21 then h ▸ o10 m c
  else if h : r = main_v22 then h ▸ o11 m c
  else if h : r = main_v24 then h ▸ o13 m c
  else m ((c : Thread nD τ).loc r)

theorem outs_main_v17 (J : ℕ) (c : Dev nD) : outs m J main_v17 c = o6 m c := by unfold outs; rw [dif_pos rfl]
theorem outs_main_v18 (J : ℕ) (c : Dev nD) : outs m J main_v18 c = o7 m c := by
  unfold outs; rw [dif_neg (by decide), dif_pos rfl]
theorem outs_main_v20 (J : ℕ) (c : Dev nD) : outs m J main_v20 c = o9 m c := by
  unfold outs; rw [dif_neg (by decide), dif_neg (by decide), dif_pos rfl]
theorem outs_main_v21 (J : ℕ) (c : Dev nD) : outs m J main_v21 c = o10 m c := by
  unfold outs; rw [dif_neg (by decide), dif_neg (by decide), dif_neg (by decide), dif_pos rfl]
theorem outs_main_v22 (J : ℕ) (c : Dev nD) : outs m J main_v22 c = o11 m c := by
  unfold outs; rw [dif_neg (by decide), dif_neg (by decide), dif_neg (by decide), dif_neg (by decide), dif_pos rfl]
theorem outs_main_v24 (J : ℕ) (c : Dev nD) : outs m J main_v24 c = o13 m c := by
  unfold outs; rw [dif_neg (by decide), dif_neg (by decide), dif_neg (by decide), dif_neg (by decide), dif_neg (by decide), dif_pos rfl]

theorem ent1_eq (c : Dev nD) : V6 m (outs m) c = X6 m c := by
  show Function.update (V5 m c) main_v17 (outs m 6 main_v17 c) = _; rw [outs_main_v17]; rfl
theorem V7_eq (c : Dev nD) : V7 m (outs m) c = X7 m c := by
  show Function.update (V6 m (outs m) c) main_v18 (outs m 7 main_v18 c) = _; rw [outs_main_v18, ent1_eq]; rfl
theorem ent2_eq (c : Dev nD) : V8 m (outs m) c = X8 m c := by
  show StableHlo.after hostOps2 (V7 m (outs m) c) = _; rw [V7_eq]
theorem ent3_eq (c : Dev nD) : V9 m (outs m) c = X9 m c := by
  show Function.update (V8 m (outs m) c) main_v20 (outs m 9 main_v20 c) = _; rw [outs_main_v20, ent2_eq]; rfl
theorem ent4_eq (c : Dev nD) : V10 m (outs m) c = X10 m c := by
  show Function.update (V9 m (outs m) c) main_v21 (outs m 10 main_v21 c) = _; rw [outs_main_v21, ent3_eq]; rfl
theorem V11_eq (c : Dev nD) : V11 m (outs m) c = X11 m c := by
  show Function.update (V10 m (outs m) c) main_v22 (outs m 11 main_v22 c) = _; rw [outs_main_v22, ent4_eq]; rfl
theorem ent5_eq (c : Dev nD) : V12 m (outs m) c = X12 m c := by
  show StableHlo.after hostOps5 (V11 m (outs m) c) = _; rw [V11_eq]
theorem V13_eq (c : Dev nD) : V13 m (outs m) c = X13 m c := by
  show Function.update (V12 m (outs m) c) main_v24 (outs m 13 main_v24 c) = _; rw [outs_main_v24, ent5_eq]; rfl

def pdats : (p : Fin 6) → (c : Dev nD) → Dat τ (Elt F) Unit ℕ (UR sig nD τ) ℕ (cfgs p) c
  | ⟨0, _⟩ => fun c => dat0 (tcOf (V5 m)) c
  | ⟨1, _⟩ => fun c => dat1 (tcOf (X6 m)) c
  | ⟨2, _⟩ => fun c => dat2 (tcOf (X8 m)) c
  | ⟨3, _⟩ => fun c => dat3 (tcOf (X9 m)) c
  | ⟨4, _⟩ => fun c => dat4 (tcOf (X10 m)) c
  | ⟨5, _⟩ => fun c => dat5 (tcOf (X12 m)) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in
/-- The six regions are segments of one shape: one constructor, given each region's launch facts, body obligation and exit arrays. -/
def mkReg (p : Fin 6) (la : Pipeline.LaunchFacts (nD := nD) (τ := τ) cfgs p) (Vp Vi Vo : Dev nD → Valuation τ sig (Elt F))
    (hV : ∀ c, Vp c = Vi c) (hb : ∀ c, BodyObligation (pdats m p c) (defs₀ (F := F)) Variants.none () Set.univ)
    (hq : ∀ c w, (pdats m p c).share w = fullShare)
    (hA : ∀ c w, (pdats m p c).A w = tcOf Vi c (Pipeline.arrRef (pcfgs (F := F) p).spec w))
    (howed : ∀ c t, (pdats m p c).owed t = 0) (hrec : ∀ c x, x ∈ (pdats m p c).recorded 0)
    (hΦ0 : ∀ c, Pipeline.ΦA (pcfgs (F := F) p).spec c ⊢ (pdats m p c).Φ 0)
    (hΦN : ∀ c, (pdats m p c).Φ (Fin.last (cfgs p).N) ⊢ Pipeline.ΦA (pcfgs (F := F) p).spec c)
    (hF : ∀ c w, (pdats m p c).arrAt w (cfgs p).N = tcOf Vo c (Pipeline.arrRef (pcfgs (F := F) p).spec w))
    (hrest : ∀ c b, b ∉ Finset.univ.image (Pipeline.arrRef (pcfgs (F := F) p).spec) → tcOf Vo c b = tcOf Vi c b) :
    RegionSeg (pcfgs (F := F)) adm (pdats m) () defs₀ Variants.none L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Vp c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (tcOf Vi c)
  hentry c := by
    rw [Pipeline.ownSems0_none]
    have hsplit := Pipeline.arrays_of_unscopedBufs (p := p) (pcfgs (F := F)) adm (pdats m) la.win la.arr_whole c (hq c) (tcOf Vi c) (hA c)
    rw [Pipeline.unscopedBufs_held] at hsplit
    rw [hV c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c _)
      iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m) (hq c) (tcOf Vi c) (tcOf Vo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

theorem hF0 (c : Dev nD) (w : Fin cfg0.W) :
    (pdats m 0 c).arrAt w cfg0.N = tcOf (V6 m (outs m)) c (Pipeline.arrRef spec0 w) := by
  fin_cases w
  rotate_right
  · show _ = V6 m (outs m) c main_v17
    rw [show V6 m (outs m) c main_v17 = outs m 6 main_v17 c from Function.update_self .., outs_main_v17]; rfl
  all_goals
    refine ((pdats m 0 c).arrAt_in _ rfl _).trans ((A_eq0 (tcOf (V5 m)) c _).trans ?_)
    show tcOf (V5 m) c _ = tcOf (V6 m (outs m)) c _
    exact (V6_of m (outs m) c _ (by decide)).symm
theorem hrest0 (c : Dev nD) : ∀ b, b ∉ Finset.univ.image (Pipeline.arrRef spec0) →
    tcOf (V6 m (outs m)) c b = tcOf (V5 m) c b := fun b hb => by
  exact V6_of m (outs m) c b (fun h => hb (Finset.mem_image.mpr ⟨3, Finset.mem_univ _, by
    rw [List.mem_singleton] at h; exact h.symm⟩))

set_option backward.isDefEq.respectTransparency.types false in
def reg0 : RegionSeg (pcfgs (F := F)) adm (pdats m) () defs₀ Variants.none L lv 0 :=
  mkReg m 0 launch0 (V5 m) (V5 m) (V6 m (outs m)) (fun _ => rfl) (body_obligation0 (tcOf (V5 m))) (fun c => (pdats m 0 c).share_full fun _ => rfl)
    (fun _ _ => rfl) (fun _ _ => rfl) (fun _ _ => trivial) (hin0 (tcOf (V5 m))) (hout0 (tcOf (V5 m))) (hF0 m) (hrest0 m)

theorem hF1 (c : Dev nD) (w : Fin cfg1.W) :
    (pdats m 1 c).arrAt w cfg1.N = tcOf (V7 m (outs m)) c (Pipeline.arrRef spec1 w) := by
  fin_cases w
  rotate_right
  · show _ = V7 m (outs m) c main_v18
    rw [show V7 m (outs m) c main_v18 = outs m 7 main_v18 c from Function.update_self .., outs_main_v18]; rfl
  all_goals
    refine ((pdats m 1 c).arrAt_in _ rfl _).trans ((A_eq1 (tcOf (X6 m)) c _).trans ?_)
    show X6 m c _ = V7 m (outs m) c _
    rw [← ent1_eq m c]; exact (V7_of m (outs m) c _ (by decide)).symm
theorem hrest1 (c : Dev nD) : ∀ b, b ∉ Finset.univ.image (Pipeline.arrRef spec1) →
    tcOf (V7 m (outs m)) c b = tcOf (X6 m) c b := fun b hb => by
  show V7 m (outs m) c b = X6 m c b
  rw [← ent1_eq m c]; exact V7_of m (outs m) c b (fun h => hb (Finset.mem_image.mpr ⟨2, Finset.mem_univ _, by
    rw [List.mem_singleton] at h; exact h.symm⟩))

set_option backward.isDefEq.respectTransparency.types false in
def reg1 : RegionSeg (pcfgs (F := F)) adm (pdats m) () defs₀ Variants.none L lv 1 :=
  mkReg m 1 launch1 (V6 m (outs m)) (X6 m) (V7 m (outs m)) (ent1_eq m) (body_obligation1 (tcOf (X6 m))) (fun c => (pdats m 1 c).share_full fun _ => rfl)
    (fun _ _ => rfl) (fun _ _ => rfl) (fun _ _ => trivial) (hin1 (tcOf (X6 m))) (hout1 (tcOf (X6 m))) (hF1 m) (hrest1 m)

theorem hF2 (c : Dev nD) (w : Fin cfg2.W) :
    (pdats m 2 c).arrAt w cfg2.N = tcOf (V9 m (outs m)) c (Pipeline.arrRef spec2 w) := by
  fin_cases w
  rotate_right
  · show _ = V9 m (outs m) c main_v20
    rw [show V9 m (outs m) c main_v20 = outs m 9 main_v20 c from Function.update_self .., outs_main_v20]; rfl
  all_goals
    refine ((pdats m 2 c).arrAt_in _ rfl _).trans ((A_eq2 (tcOf (X8 m)) c _).trans ?_)
    show X8 m c _ = V9 m (outs m) c _
    rw [← ent2_eq m c]; exact (V9_of m (outs m) c _ (by decide)).symm
theorem hrest2 (c : Dev nD) : ∀ b, b ∉ Finset.univ.image (Pipeline.arrRef spec2) →
    tcOf (V9 m (outs m)) c b = tcOf (X8 m) c b := fun b hb => by
  show V9 m (outs m) c b = X8 m c b
  rw [← ent2_eq m c]; exact V9_of m (outs m) c b (fun h => hb (Finset.mem_image.mpr ⟨4, Finset.mem_univ _, by
    rw [List.mem_singleton] at h; exact h.symm⟩))

set_option backward.isDefEq.respectTransparency.types false in
def reg2 : RegionSeg (pcfgs (F := F)) adm (pdats m) () defs₀ Variants.none L lv 2 :=
  mkReg m 2 launch2 (V8 m (outs m)) (X8 m) (V9 m (outs m)) (ent2_eq m) (body_obligation2 (tcOf (X8 m))) (fun c => (pdats m 2 c).share_full fun _ => rfl)
    (fun _ _ => rfl) (fun _ _ => rfl) (fun _ _ => trivial) (hin2 (tcOf (X8 m))) (hout2 (tcOf (X8 m))) (hF2 m) (hrest2 m)

theorem hF3 (c : Dev nD) (w : Fin cfg3.W) :
    (pdats m 3 c).arrAt w cfg3.N = tcOf (V10 m (outs m)) c (Pipeline.arrRef spec3 w) := by
  fin_cases w
  rotate_right
  · show _ = V10 m (outs m) c main_v21
    rw [show V10 m (outs m) c main_v21 = outs m 10 main_v21 c from Function.update_self .., outs_main_v21]; rfl
  all_goals
    refine ((pdats m 3 c).arrAt_in _ rfl _).trans ((A_eq3 (tcOf (X9 m)) c _).trans ?_)
    show X9 m c _ = V10 m (outs m) c _
    rw [← ent3_eq m c]; exact (V10_of m (outs m) c _ (by decide)).symm
theorem hrest3 (c : Dev nD) : ∀ b, b ∉ Finset.univ.image (Pipeline.arrRef spec3) →
    tcOf (V10 m (outs m)) c b = tcOf (X9 m) c b := fun b hb => by
  show V10 m (outs m) c b = X9 m c b
  rw [← ent3_eq m c]; exact V10_of m (outs m) c b (fun h => hb (Finset.mem_image.mpr ⟨3, Finset.mem_univ _, by
    rw [List.mem_singleton] at h; exact h.symm⟩))

set_option backward.isDefEq.respectTransparency.types false in
def reg3 : RegionSeg (pcfgs (F := F)) adm (pdats m) () defs₀ Variants.none L lv 3 :=
  mkReg m 3 launch3 (V9 m (outs m)) (X9 m) (V10 m (outs m)) (ent3_eq m) (body_obligation3 (tcOf (X9 m))) (fun c => (pdats m 3 c).share_full fun _ => rfl)
    (fun _ _ => rfl) (fun _ _ => rfl) (fun _ _ => trivial) (hin3 (tcOf (X9 m))) (hout3 (tcOf (X9 m))) (hF3 m) (hrest3 m)

theorem hF4 (c : Dev nD) (w : Fin cfg4.W) :
    (pdats m 4 c).arrAt w cfg4.N = tcOf (V11 m (outs m)) c (Pipeline.arrRef spec4 w) := by
  fin_cases w
  rotate_right
  · show _ = V11 m (outs m) c main_v22
    rw [show V11 m (outs m) c main_v22 = outs m 11 main_v22 c from Function.update_self .., outs_main_v22]; rfl
  all_goals
    refine ((pdats m 4 c).arrAt_in _ rfl _).trans ((A_eq4 (tcOf (X10 m)) c _).trans ?_)
    show X10 m c _ = V11 m (outs m) c _
    rw [← ent4_eq m c]; exact (V11_of m (outs m) c _ (by decide)).symm
theorem hrest4 (c : Dev nD) : ∀ b, b ∉ Finset.univ.image (Pipeline.arrRef spec4) →
    tcOf (V11 m (outs m)) c b = tcOf (X10 m) c b := fun b hb => by
  show V11 m (outs m) c b = X10 m c b
  rw [← ent4_eq m c]; exact V11_of m (outs m) c b (fun h => hb (Finset.mem_image.mpr ⟨2, Finset.mem_univ _, by
    rw [List.mem_singleton] at h; exact h.symm⟩))

set_option backward.isDefEq.respectTransparency.types false in
def reg4 : RegionSeg (pcfgs (F := F)) adm (pdats m) () defs₀ Variants.none L lv 4 :=
  mkReg m 4 launch4 (V10 m (outs m)) (X10 m) (V11 m (outs m)) (ent4_eq m) (body_obligation4 (tcOf (X10 m))) (fun c => (pdats m 4 c).share_full fun _ => rfl)
    (fun _ _ => rfl) (fun _ _ => rfl) (fun _ _ => trivial) (hin4 (tcOf (X10 m))) (hout4 (tcOf (X10 m))) (hF4 m) (hrest4 m)

theorem hF5 (c : Dev nD) (w : Fin cfg5.W) :
    (pdats m 5 c).arrAt w cfg5.N = tcOf (V13 m (outs m)) c (Pipeline.arrRef spec5 w) := by
  fin_cases w
  rotate_right
  · show _ = V13 m (outs m) c main_v24
    rw [show V13 m (outs m) c main_v24 = outs m 13 main_v24 c from Function.update_self .., outs_main_v24]; rfl
  all_goals
    refine ((pdats m 5 c).arrAt_in _ rfl _).trans ((A_eq5 (tcOf (X12 m)) c _).trans ?_)
    show X12 m c _ = V13 m (outs m) c _
    rw [← ent5_eq m c]; exact (V13_of m (outs m) c _ (by decide)).symm
theorem hrest5 (c : Dev nD) : ∀ b, b ∉ Finset.univ.image (Pipeline.arrRef spec5) →
    tcOf (V13 m (outs m)) c b = tcOf (X12 m) c b := fun b hb => by
  show V13 m (outs m) c b = X12 m c b
  rw [← ent5_eq m c]; exact V13_of m (outs m) c b (fun h => hb (Finset.mem_image.mpr ⟨4, Finset.mem_univ _, by
    rw [List.mem_singleton] at h; exact h.symm⟩))

set_option backward.isDefEq.respectTransparency.types false in
def reg5 : RegionSeg (pcfgs (F := F)) adm (pdats m) () defs₀ Variants.none L lv 5 :=
  mkReg m 5 launch5 (V12 m (outs m)) (X12 m) (V13 m (outs m)) (ent5_eq m) (body_obligation5 (tcOf (X12 m))) (fun c => (pdats m 5 c).share_full fun _ => rfl)
    (fun _ _ => rfl) (fun _ _ => rfl) (fun _ _ => trivial) (hin5 (tcOf (X12 m))) (hout5 (tcOf (X12 m))) (hF5 m) (hrest5 m)

set_option backward.isDefEq.respectTransparency.types false in

theorem run_main (ρ : Dev nD → PrngReg) : θ_run defs (onTc (τ := τ) (main (F := F))) ⟨m, fun _ => 0, ρ⟩ (fun r => ∀ c : Dev nD,
      r.2.mem ((c.tc : Thread nD τ).loc main_v24) = o13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h := run_cond m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      beta_reduce
      iintro ⟨⟨-, HO, -, Hp, -⟩, -⟩
      imodintro
      isplitl [Hp]; · iexists _; iexact Hp
      iexists ∅; iexact HO)
    (hE6 := fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)
  refine (θ_run defs _ _).mono (fun r hr c => ?_) h
  refine ⟨(hr c).1.trans ?_, (hr c).2⟩
  rw [V13_eq]; exact Function.update_self ..

end Cert.KernelIdeal.Hand

end
-- ==== Proof.Spec.lean ====
import Idealize.ShloMosaic.PureOps.Ideal
import Idealize.ShloMosaic.Lib.ValueIdx

noncomputable section

namespace Cert.Spec

open Idealize.ShloMosaic

def lin {D : ℕ} (x : Fin 50000 → Fin 128 → EReal) (ns : Fin 50000 → EReal) (W : Fin 128 → Fin D → EReal) :
    Fin 50000 → Fin D → EReal :=
  fun n d => ∑ k : Fin 128, (x n k * ns n) * W k d

def gat {D : ℕ} (h : Fin 50000 → Fin D → EReal) (es : Fin 600000 → BitVec 32) : Fin 600000 → Fin D → EReal :=
  fun e d => if hlt : (es e).toNat < 50000 then h ⟨(es e).toNat, hlt⟩ d else 0

def sca {D : ℕ} (g : Fin 600000 → Fin D → EReal) (ed : Fin 600000 → BitVec 32) : Fin 50000 → Fin D → EReal :=
  fun n d => ∑ e : Fin 600000, if (ed e).toNat = n.val then g e d else 0

def conv {D : ℕ} (x : Fin 50000 → Fin 128 → EReal) (ns nd : Fin 50000 → EReal) (W : Fin 128 → Fin D → EReal)
    (b : Fin D → EReal) (es ed : Fin 600000 → BitVec 32) : Fin 50000 → Fin D → EReal :=
  fun n d => sca (gat (lin x ns W) es) ed n d * nd n + b d

def hid (x : Fin 50000 → Fin 128 → EReal) (ns nd : Fin 50000 → EReal) (W1 : Fin 128 → Fin 128 → EReal)
    (b1 : Fin 128 → EReal) (es ed : Fin 600000 → BitVec 32) : Fin 50000 → Fin 128 → EReal :=
  fun n d => max (conv x ns nd W1 b1 es ed n d) 0

def out (x : Fin 50000 → Fin 128 → EReal) (ns nd : Fin 50000 → EReal) (W1 : Fin 128 → Fin 128 → EReal)
    (b1 : Fin 128 → EReal) (W2 : Fin 128 → Fin 64 → EReal) (b2 : Fin 64 → EReal)
    (es ed : Fin 600000 → BitVec 32) : Fin 50000 → Fin 64 → EReal :=
  conv (hid x ns nd W1 b1 es ed) ns nd W2 b2 es ed

end Cert.Spec

end
-- ==== Proof.SumLaws.lean ====
import proofs.«411707_j25580825215441_1_alg».proof.Proof.Spec
import Mathlib.Algebra.BigOperators.Fin
import Mathlib.Data.EReal.Basic

noncomputable section

namespace Cert.Spec

open Idealize.ShloMosaic

theorem sum_blocks {M : Type*} [AddCommMonoid M] {m n N : ℕ} (hN : m * n = N) (F : Fin N → M)
    (hb : ∀ (b : Fin m) (j : Fin n), b.val * n + j.val < N) :
    (∑ b : Fin m, ∑ j : Fin n, F ⟨b.val * n + j.val, hb b j⟩) = ∑ k : Fin N, F k := by
  subst hN
  have h := Fintype.sum_equiv (finProdFinEquiv (m := m) (n := n))
    (fun p : Fin m × Fin n => F ⟨p.1.val * n + p.2.val, hb p.1 p.2⟩) F
    (fun p => by
      congr 1
      apply Fin.ext
      simp [finProdFinEquiv, Nat.mul_comm, Nat.add_comm])
  rw [← h, Fintype.sum_prod_type]

theorem eq_ofNat_iff (i : BitVec 32) (k : ℕ) (hk : k < 2 ^ 32) : i = BitVec.ofNat 32 k ↔ i.toNat = k := by
  constructor
  · intro e
    rw [e, BitVec.toNat_ofNat]
    exact Nat.mod_eq_of_lt hk
  · intro e
    apply BitVec.eq_of_toNat_eq
    rw [BitVec.toNat_ofNat, e]
    exact (Nat.mod_eq_of_lt hk).symm

theorem gat_blocked {D : ℕ} (h : Fin 50000 → Fin D → EReal) (i : BitVec 32) (d : Fin D) :
    (∑ b : Fin 50, ∑ j : Fin 1000, (if i = BitVec.ofNat 32 (b.val * 1000 + j.val) then (1 : EReal) else 0)
        * h ⟨b.val * 1000 + j.val, by omega⟩ d)
      = if hlt : i.toNat < 50000 then h ⟨i.toNat, hlt⟩ d else 0 := by
  have hre := sum_blocks (m := 50) (n := 1000) (N := 50000) (by norm_num)
    (fun k : Fin 50000 => (if i = BitVec.ofNat 32 k.val then (1 : EReal) else 0) * h k d)
    (fun b j => by have := b.isLt; have := j.isLt; omega)
  refine hre.trans ?_
  have key : ∀ k : Fin 50000, (i = BitVec.ofNat 32 k.val) ↔ i.toNat = k.val := fun k =>
    eq_ofNat_iff i k.val (lt_trans k.isLt (by norm_num))
  simp only [key, ite_mul, one_mul, zero_mul]
  split
  · rename_i hlt
    rw [Finset.sum_eq_single (⟨i.toNat, hlt⟩ : Fin 50000)]
    · simp
    · intro k _ hk
      rw [if_neg]
      intro e
      exact hk (Fin.ext e.symm)
    · intro hh
      exact absurd (Finset.mem_univ _) hh
  · rename_i hlt
    apply Finset.sum_eq_zero
    intro k _
    rw [if_neg]
    intro e
    exact hlt (e ▸ k.isLt)

theorem sca_blocked {D : ℕ} (g : Fin 600000 → Fin D → EReal) (ed : Fin 600000 → BitVec 32) (n : Fin 50000) (d : Fin D) :
    (∑ b : Fin 250, ∑ j : Fin 2400, (if ed ⟨b.val * 2400 + j.val, by omega⟩ = BitVec.ofNat 32 n.val then (1 : EReal) else 0)
        * g ⟨b.val * 2400 + j.val, by omega⟩ d)
      = sca g ed n d := by
  have hre := sum_blocks (m := 250) (n := 2400) (N := 600000) (by norm_num)
    (fun e : Fin 600000 => (if ed e = BitVec.ofNat 32 n.val then (1 : EReal) else 0) * g e d)
    (fun b j => by have := b.isLt; have := j.isLt; omega)
  refine hre.trans ?_
  unfold sca
  apply Finset.sum_congr rfl
  intro e _
  have key : (ed e = BitVec.ofNat 32 n.val) ↔ (ed e).toNat = n.val :=
    eq_ofNat_iff (ed e) n.val (lt_trans n.isLt (by norm_num))
  simp only [key, ite_mul, one_mul, zero_mul]

theorem running_sum_fin (K : ℕ) (a s : ℕ → EReal) (h0 : a 0 = 0 + s 0) (hs : ∀ k, k < K → a (k + 1) = a k + s (k + 1)) :
    a K = ∑ i : Fin (K + 1), s i.val := by
  have hk : ∀ k, k ≤ K → a k = ∑ i ∈ Finset.range (k + 1), s i := by
    intro k
    induction k with
    | zero => intro _; rw [h0, Finset.sum_range_one, zero_add]
    | succ k ih =>
      intro hle
      rw [hs k (Nat.lt_of_succ_le hle), ih (Nat.le_of_succ_le hle), Finset.sum_range_succ _ (k + 1)]
  rw [hk K le_rfl, Fin.sum_univ_eq_sum_range (fun i => s i) (K + 1)]

end Cert.Spec

end
-- ==== Proof.Val.Payloads.lean ====
import proofs.«411707_j25580825215441_1_alg».proof.Proof.Gen.KernelIdeal.Skeleton
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember
import Idealize.ShloMosaic.PureOps.Ideal.Laws

noncomputable section

namespace Cert.KernelIdeal.Val

open Cert.KernelIdeal Cert.KernelIdeal.Gen Idealize.ShloMosaic Idealize.ShloMosaic.ValueIdx

section Layout
variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Products
variable {m k n : ℕ} {φ₁ φ₂ : FTy}

theorem matmul_rows_cols_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  rw [matmul_zero_eq_dotGeneral]
  exact StackMember.dotGeneral_plain_apply prec A B a b

theorem matmul_cols_cols_apply (D : DotDims ⟨2, ![k, m]⟩ ⟨2, ![k, n]⟩ ⟨2, ![m, n]⟩)
    (w : DotDims.WF ⟨2, ![k, m]⟩ ⟨2, ![k, n]⟩ ⟨2, ![m, n]⟩ [0] [0] [1] [1] [] [])
    (hD : D = ⟨[0], [0], [1], [1], [], [], w⟩)
    (prec : Option ContractPrecision) (A : FVec Ideal ⟨2, ![k, m]⟩ φ₁) (B : FVec Ideal ⟨2, ![k, n]⟩ φ₂) (a : Fin m) (b : Fin n) :
    matmul D prec A B (constant (F := Ideal) ⟨2, ![m, n]⟩ .f32 0x00000000#32) (ix2 a b)
      = ∑ c : Fin k, A (ix2 c a) * B (ix2 c b) := by
  subst hD
  show FloatOps.matmul _ prec A B (constant (F := Ideal) ⟨2, ![m, n]⟩ .f32 0x00000000#32) (ix2 a b) = _
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Products

theorem sitofp_cmpi_eq (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · have hc : IntOp.cmpi .eq a b = 1#1 := by simp [IntOp.cmpi, h]
    have h1 : ((1#1 : BitVec 1).setWidth 32).toInt = 1 := by decide
    rw [hc, if_pos h, h1]
    simp
  · have hb : (a == b) = false := beq_eq_false_iff_ne.mpr h
    have hc : IntOp.cmpi .eq a b = 0#1 := by
      show BitVec.ofBool (a == b) = 0#1
      rw [hb]
      rfl
    have h0 : ((0#1 : BitVec 1).setWidth 32).toInt = 0 := by decide
    rw [hc, if_neg h, h0]
    simp

theorem base_add_lane (g j : ℕ) :
    IntOp.addi (Scalar.muli (BitVec.ofNat 32 g) 1000#32) (BitVec.ofNat 32 j) = BitVec.ofNat 32 (g * 1000 + j) := by
  show BitVec.ofNat 32 g * 1000#32 + BitVec.ofNat 32 j = _
  rw [BitVec.ofNat_add, BitVec.ofNat_mul]

def sel (g : ℕ) (v7 : Vec Ideal S2400x1 .i32) : FVec Ideal S2400x1000 .bf16 :=
  truncf .bf16 (sitofp .f32 (extui 32 (cmpi .eq
    (broadcastTo S2400x1000 (shapeCast S2400x1 v7 shapeCasts_S2400x1_S2400x1) broadcasts_S2400x1_S2400x1000)
    (broadcastTo S2400x1000 (addi (broadcast S1x1000 (Scalar.muli (BitVec.ofNat 32 g) 1000#32))
      (iota .tc S1x1000 32 [1] iota_S1x1000_d1_w32)) broadcasts_S1x1000_S2400x1000)) natLt_1_32)) bitsLt_bf16_f32

theorem sel_apply (g : ℕ) (v7 : Vec Ideal S2400x1 .i32) (e : Fin 2400) (j : Fin 1000) :
    sel g v7 (ix2 e j) = if v7 (ix2 e 0) = BitVec.ofNat 32 (g * 1000 + j.val) then (1 : EReal) else 0 := by
  unfold sel
  rw [truncf_apply, sitofp_apply, extui_apply]
  show FloatOps.sitofp (F := Ideal) .f32 ((IntOp.cmpi .eq
    (broadcastTo S2400x1000 (shapeCast S2400x1 v7 shapeCasts_S2400x1_S2400x1) broadcasts_S2400x1_S2400x1000 (ix2 e j))
    (broadcastTo S2400x1000 (addi (broadcast S1x1000 (Scalar.muli (BitVec.ofNat 32 g) 1000#32))
      (iota .tc S1x1000 32 [1] iota_S1x1000_d1_w32)) broadcasts_S1x1000_S2400x1000 (ix2 e j))).setWidth 32) = _
  rw [broadcastTo_a1_ab_apply, shapeCast_self, broadcastTo_1b_ab_apply]
  show FloatOps.sitofp (F := Ideal) .f32 ((IntOp.cmpi .eq (v7 (ix2 e 0))
    (IntOp.addi (Scalar.muli (BitVec.ofNat 32 g) 1000#32)
      (iota .tc S1x1000 32 [1] iota_S1x1000_d1_w32 (ix2 (0 : Fin 1) j)))).setWidth 32) = _
  rw [iota_single_apply, sitofp_cmpi_eq]
  show (if v7 (ix2 e 0) = IntOp.addi (Scalar.muli (BitVec.ofNat 32 g) 1000#32) (BitVec.ofNat 32 j.val) then (1 : EReal) else 0) = _
  rw [base_add_lane]

theorem k0_pay1_apply (x0 : Vec Ideal S5000x128 .f32) (x1 : Vec Ideal S5000x1 .f32) (x2 : Vec Ideal S128x128 .f32)
    (p : Fin 5000) (q : Fin 128) :
    k0_pay1 (F := Ideal) x0 x1 x2 (ix2 p q) = ∑ k : Fin 128, (x0 (ix2 p k) * x1 (ix2 p 0)) * x2 (ix2 k q) := by
  show matmul dot_S5000x128_S128x128_S5000x128_1_0_0_1_n_n none
    (truncf .bf16 (mulf (F := Ideal) x0
      (broadcastTo S5000x128 (shapeCast S5000x1 x1 shapeCasts_S5000x1_S5000x1) broadcasts_S5000x1_S5000x128)) bitsLt_bf16_f32)
    (truncf .bf16 x2 bitsLt_bf16_f32) (constant (F := Ideal) S5000x128 .f32 0x00000000#32) (ix2 p q) = _
  rw [matmul_rows_cols_apply dot_S5000x128_S128x128_S5000x128_1_0_0_1_n_n rfl]
  refine Finset.sum_congr rfl fun k _ => ?_
  rw [truncf_apply, truncf_apply, mulf_apply, broadcastTo_a1_ab_apply, shapeCast_self]

theorem k3_pay1_apply (x0 : Vec Ideal S5000x128 .f32) (x1 : Vec Ideal S5000x1 .f32) (x2 : Vec Ideal S128x64 .f32)
    (p : Fin 5000) (q : Fin 64) :
    k3_pay1 (F := Ideal) x0 x1 x2 (ix2 p q) = ∑ k : Fin 128, (x0 (ix2 p k) * x1 (ix2 p 0)) * x2 (ix2 k q) := by
  show matmul dot_S5000x128_S128x64_S5000x64_1_0_0_1_n_n none
    (truncf .bf16 (mulf (F := Ideal) (shapeCast S5000x128 x0 shapeCasts_S5000x128_S5000x128)
      (broadcastTo S5000x128 (shapeCast S5000x1 x1 shapeCasts_S5000x1_S5000x1) broadcasts_S5000x1_S5000x128)) bitsLt_bf16_f32)
    (truncf .bf16 x2 bitsLt_bf16_f32) (constant (F := Ideal) S5000x64 .f32 0x00000000#32) (ix2 p q) = _
  rw [matmul_rows_cols_apply dot_S5000x128_S128x64_S5000x64_1_0_0_1_n_n rfl]
  refine Finset.sum_congr rfl fun k _ => ?_
  rw [truncf_apply, truncf_apply, mulf_apply, broadcastTo_a1_ab_apply, shapeCast_self, shapeCast_self]

theorem k1_pay1_apply (e : Fin 2400) (d : Fin 128) : k1_pay1 (F := Ideal) (ix2 e d) = 0 := by
  unfold k1_pay1
  rw [shapeCast_self]
  show Ideal.ofBits .f32 0x00000000#32 = 0
  exact Ideal.ofBits_zero_f32

theorem k1_pay2_apply (i : grid1.Coords) (v7 : Vec Ideal S2400x1 .i32) (v15 : Vec Ideal S1000x128 .f32)
    (v18 : Vec Ideal S2400x128 .f32) (e : Fin 2400) (d : Fin 128) :
    k1_pay2 (F := Ideal) i v7 v15 v18 (ix2 e d)
      = v18 (ix2 e d) + ∑ j : Fin 1000,
          (if v7 (ix2 e 0) = BitVec.ofNat 32 ((i 1).val * 1000 + j.val) then (1 : EReal) else 0) * v15 (ix2 j d) := by
  show shapeCast S2400x128 (addf (F := Ideal) v18
    (matmul dot_S2400x1000_S1000x128_S2400x128_1_0_0_1_n_n none (sel (i 1).val v7)
      (truncf .bf16 (shapeCast S1000x128 v15 shapeCasts_S1000x128_S1000x128) bitsLt_bf16_f32)
      (constant (F := Ideal) S2400x128 .f32 0x00000000#32))) shapeCasts_S2400x128_S2400x128 (ix2 e d) = _
  rw [shapeCast_self, addf_apply, matmul_rows_cols_apply dot_S2400x1000_S1000x128_S2400x128_1_0_0_1_n_n rfl]
  refine congrArg (v18 (ix2 e d) + ·) (Finset.sum_congr rfl fun j _ => ?_)
  rw [sel_apply, truncf_apply, shapeCast_self]

theorem k1_pay3_apply (v27 : Vec Ideal S2400x128 .f32) (e : Fin 2400) (d : Fin 128) :
    k1_pay3 (F := Ideal) v27 (ix2 e d) = v27 (ix2 e d) := rfl

theorem k4_pay1_apply (e : Fin 2400) (d : Fin 64) : k4_pay1 (F := Ideal) (ix2 e d) = 0 := by
  unfold k4_pay1
  rw [shapeCast_self]
  show Ideal.ofBits .f32 0x00000000#32 = 0
  exact Ideal.ofBits_zero_f32

theorem k4_pay2_apply (i : grid4.Coords) (v7 : Vec Ideal S2400x1 .i32) (v15 : Vec Ideal S1000x64 .f32)
    (v18 : Vec Ideal S2400x64 .f32) (e : Fin 2400) (d : Fin 64) :
    k4_pay2 (F := Ideal) i v7 v15 v18 (ix2 e d)
      = v18 (ix2 e d) + ∑ j : Fin 1000,
          (if v7 (ix2 e 0) = BitVec.ofNat 32 ((i 1).val * 1000 + j.val) then (1 : EReal) else 0) * v15 (ix2 j d) := by
  show shapeCast S2400x64 (addf (F := Ideal) v18
    (matmul dot_S2400x1000_S1000x64_S2400x64_1_0_0_1_n_n none (sel (i 1).val v7)
      (truncf .bf16 (shapeCast S1000x64 v15 shapeCasts_S1000x64_S1000x64) bitsLt_bf16_f32)
      (constant (F := Ideal) S2400x64 .f32 0x00000000#32))) shapeCasts_S2400x64_S2400x64 (ix2 e d) = _
  rw [shapeCast_self, addf_apply, matmul_rows_cols_apply dot_S2400x1000_S1000x64_S2400x64_1_0_0_1_n_n rfl]
  refine congrArg (v18 (ix2 e d) + ·) (Finset.sum_congr rfl fun j _ => ?_)
  rw [sel_apply, truncf_apply, shapeCast_self]

theorem k4_pay3_apply (v27 : Vec Ideal S2400x64 .f32) (e : Fin 2400) (d : Fin 64) :
    k4_pay3 (F := Ideal) v27 (ix2 e d) = v27 (ix2 e d) := rfl

theorem k2_pay1_apply (n : Fin 1000) (d : Fin 128) : k2_pay1 (F := Ideal) (ix2 n d) = 0 := by
  unfold k2_pay1
  rw [shapeCast_self]
  show Ideal.ofBits .f32 0x00000000#32 = 0
  exact Ideal.ofBits_zero_f32

theorem k2_pay2_apply (i : grid2.Coords) (v7 : Vec Ideal S2400x1 .i32) (v15 : Vec Ideal S2400x128 .bf16)
    (v17 : Vec Ideal S1000x128 .f32) (n : Fin 1000) (d : Fin 128) :
    k2_pay2 (F := Ideal) i v7 v15 v17 (ix2 n d)
      = v17 (ix2 n d) + ∑ e : Fin 2400,
          (if v7 (ix2 e 0) = BitVec.ofNat 32 ((i 0).val * 1000 + n.val) then (1 : EReal) else 0) * v15 (ix2 e d) := by
  show shapeCast S1000x128 (addf (F := Ideal) v17
    (matmul dot_S2400x1000_S2400x128_S1000x128_0_0_1_1_n_n none (sel (i 0).val v7)
      (shapeCast S2400x128 v15 shapeCasts_S2400x128_S2400x128)
      (constant (F := Ideal) S1000x128 .f32 0x00000000#32))) shapeCasts_S1000x128_S1000x128 (ix2 n d) = _
  rw [shapeCast_self, addf_apply,
    matmul_cols_cols_apply dot_S2400x1000_S2400x128_S1000x128_0_0_1_1_n_n
      dot_S2400x1000_S2400x128_S1000x128_0_0_1_1_n_n.wf rfl]
  refine congrArg (v17 (ix2 n d) + ·) (Finset.sum_congr rfl fun e _ => ?_)
  rw [sel_apply, shapeCast_self]

theorem k2_pay3_apply (v26 : Vec Ideal S1000x128 .f32) (v27 : Vec Ideal S1000x1 .f32) (v31 : Vec Ideal S1x128 .f32)
    (n : Fin 1000) (d : Fin 128) :
    k2_pay3 (F := Ideal) v26 v27 v31 (ix2 n d) = max (v26 (ix2 n d) * v27 (ix2 n 0) + v31 (ix2 0 d)) 0 := by
  show maximumf (F := Ideal) (addf (mulf v26
      (broadcastTo S1000x128 (shapeCast S1000x1 v27 shapeCasts_S1000x1_S1000x1) broadcasts_S1000x1_S1000x128))
      (broadcastTo S1000x128 (shapeCast S1x128 v31 shapeCasts_S1x128_S1x128) broadcasts_S1x128_S1000x128))
    (broadcast S1000x128 (Scalar.ofBits (F := Ideal) .f32 0x00000000#32)) (ix2 n d) = _
  rw [maximumf_apply, addf_apply, mulf_apply, broadcastTo_a1_ab_apply, broadcastTo_1b_ab_apply, shapeCast_self,
    shapeCast_self, broadcast_apply]
  show max _ (Ideal.ofBits .f32 0x00000000#32) = _
  rw [Ideal.ofBits_zero_f32]

theorem k5_pay1_apply (n : Fin 1000) (d : Fin 64) : k5_pay1 (F := Ideal) (ix2 n d) = 0 := by
  unfold k5_pay1
  rw [shapeCast_self]
  show Ideal.ofBits .f32 0x00000000#32 = 0
  exact Ideal.ofBits_zero_f32

theorem k5_pay2_apply (i : grid5.Coords) (v7 : Vec Ideal S2400x1 .i32) (v15 : Vec Ideal S2400x64 .bf16)
    (v17 : Vec Ideal S1000x64 .f32) (n : Fin 1000) (d : Fin 64) :
    k5_pay2 (F := Ideal) i v7 v15 v17 (ix2 n d)
      = v17 (ix2 n d) + ∑ e : Fin 2400,
          (if v7 (ix2 e 0) = BitVec.ofNat 32 ((i 0).val * 1000 + n.val) then (1 : EReal) else 0) * v15 (ix2 e d) := by
  show shapeCast S1000x64 (addf (F := Ideal) v17
    (matmul dot_S2400x1000_S2400x64_S1000x64_0_0_1_1_n_n none (sel (i 0).val v7)
      (shapeCast S2400x64 v15 shapeCasts_S2400x64_S2400x64)
      (constant (F := Ideal) S1000x64 .f32 0x00000000#32))) shapeCasts_S1000x64_S1000x64 (ix2 n d) = _
  rw [shapeCast_self, addf_apply,
    matmul_cols_cols_apply dot_S2400x1000_S2400x64_S1000x64_0_0_1_1_n_n
      dot_S2400x1000_S2400x64_S1000x64_0_0_1_1_n_n.wf rfl]
  refine congrArg (v17 (ix2 n d) + ·) (Finset.sum_congr rfl fun e _ => ?_)
  rw [sel_apply, shapeCast_self]

theorem k5_pay3_apply (v26 : Vec Ideal S1000x64 .f32) (v27 : Vec Ideal S1000x1 .f32) (v31 : Vec Ideal S1x64 .f32)
    (n : Fin 1000) (d : Fin 64) :
    k5_pay3 (F := Ideal) v26 v27 v31 (ix2 n d) = v26 (ix2 n d) * v27 (ix2 n 0) + v31 (ix2 0 d) := by
  show addf (F := Ideal) (mulf v26
      (broadcastTo S1000x64 (shapeCast S1000x1 v27 shapeCasts_S1000x1_S1000x1) broadcasts_S1000x1_S1000x64))
      (broadcastTo S1000x64 (shapeCast S1x64 v31 shapeCasts_S1x64_S1x64) broadcasts_S1x64_S1000x64) (ix2 n d) = _
  rw [addf_apply, mulf_apply, broadcastTo_a1_ab_apply, broadcastTo_1b_ab_apply, shapeCast_self, shapeCast_self]

end Cert.KernelIdeal.Val

end
-- ==== Proof.Val.LinValue0.lean ====
import proofs.«411707_j25580825215441_1_alg».proof.Proof.KI.LinBody0
import proofs.«411707_j25580825215441_1_alg».proof.Proof.Spec
import proofs.«411707_j25580825215441_1_alg».proof.Proof.SumLaws
import proofs.«411707_j25580825215441_1_alg».proof.Proof.Val.Payloads
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Hand Idealize.ShloMosaic Idealize.ShloMosaic.ValueIdx Idealize.ShloMosaic.TcCoe

variable (V : (c : Dev nD) → (b : Ref sig .tc) → Buf (Elt Ideal) ((c : Thread nD τ).loc b))

theorem lin0_hz : (![0, 0] : Fin 2 → Nat) = fun _ => 0 := funext fun a => by fin_cases a <;> rfl

theorem lin0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lin0_flush : ∀ t : Fin cfg0.N, (cfg0.win 3).flush t = true :=
  (by decide +kernel : ∀ t : Fin grid0.N, win0_3.flush t = true)

theorem lin0_blk0 (c : Dev nD) (t : Fin cfg0.N) (p : Fin 5000) (k : Fin 128) (n : Fin 50000)
    (hn : n.val = t.val * 5000 + p.val) :
    (iblk0 V c 0 t : Vec Ideal S5000x128 .f32) (ix2 p k) = V c main_arg0 (ix2 n k) := by
  obtain ⟨e0, e1, -⟩ := lin0_idx t
  unfold iblk0
  rw [View.read_apply]
  show V c main_arg0 _ = V c main_arg0 _
  congr 1
  funext a; apply Fin.ext
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

theorem lin0_blk1 (c : Dev nD) (t : Fin cfg0.N) (p : Fin 5000) (n : Fin 50000)
    (hn : n.val = t.val * 5000 + p.val) :
    (iblk0 V c 1 t : Vec Ideal S5000x1 .f32) (ix2 p 0) = V c main_v10 (ix2 n 0) := by
  obtain ⟨-, -, e0, e1, -⟩ := lin0_idx t
  unfold iblk0
  rw [View.read_apply]
  show V c main_v10 _ = V c main_v10 _
  congr 1
  funext a; apply Fin.ext
  match a with
  | ⟨0, _⟩ => show win0_1.index t (0 : Fin 2) * 5000 + 1 * p.val = n.val; rw [e0, hn]; omega
  | ⟨1, _⟩ => show win0_1.index t (1 : Fin 2) * 1 + 1 * 0 = 0; rw [e1]

theorem lin0_blk2 (c : Dev nD) (t : Fin cfg0.N) (k : Fin 128) (q : Fin 128) :
    (iblk0 V c 2 t : Vec Ideal S128x128 .f32) (ix2 k q) = V c main_arg1 (ix2 k q) := by
  obtain ⟨-, -, -, -, e0, e1, -⟩ := lin0_idx t
  unfold iblk0
  rw [View.read_apply]
  show V c main_arg1 _ = V c main_arg1 _
  congr 1
  funext a; apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem lin0_out_apply (x0 : Vec Ideal S5000x128 .f32) (x1 : Vec Ideal S5000x1 .f32) (x2 : Vec Ideal S128x128 .f32)
    (p : Fin 5000) (q : Fin 128) :
    out0_3 (F := Ideal) x0 x1 x2 (ix2 p q) = ∑ k : Fin 128, (x0 (ix2 p k) * x1 (ix2 p 0)) * x2 (ix2 k q) := by
  unfold out0_3
  rw [View.canon_unit_zero lin0_hz]
  simp only [View.ld_unit_zero (S := S5000x128) lin0_hz, View.ld_unit_zero (S := S5000x1) lin0_hz,
    View.ld_unit_zero (S := S128x128) lin0_hz]
  exact k0_pay1_apply x0 x1 x2 p q

abbrev lin0_G (c : Dev nD) : S50000x128.Idx → Elt Ideal .f32 := fun i =>
  Cert.Spec.lin (fun n k => V c main_arg0 (ix2 n k)) (fun n => V c main_v10 (ix2 n 0)) (fun k d => V c main_arg1 (ix2 k d)) (i 0) (i 1)

theorem lin0_point (c : Dev nD) (t : Fin cfg0.N) (p : Fin 5000) (q : Fin 128) (n : Fin 50000) (d : Fin 128)
    (hn : n.val = t.val * 5000 + p.val) (hd : d.val = q.val) :
    out0_3 (F := Ideal) (iblk0 V c 0 t) (iblk0 V c 1 t) (iblk0 V c 2 t) (ix2 p q)
      = Cert.Spec.lin (fun n k => V c main_arg0 (ix2 n k)) (fun n => V c main_v10 (ix2 n 0)) (fun k d => V c main_arg1 (ix2 k d)) n d := by
  have e : d = q := Fin.ext hd
  subst e
  rw [lin0_out_apply]
  unfold Cert.Spec.lin
  refine Finset.sum_congr rfl fun k _ => ?_
  rw [lin0_blk0 V c t p k n hn, lin0_blk1 V c t p n hn, lin0_blk2 V c t k _]

theorem lin0_flushed (c : Dev nD) (t : Fin cfg0.N) :
    (dat0 (F := Ideal) V c).flushed 3 t = ((cfg0.win 3).blk t).view.read (Elt Ideal) (lin0_G V c) := by
  show (cfg0.win 3).cut (grid0.coords t) ((dat0 V c).after 3 t) = _
  rw [after0_3]
  funext j
  obtain ⟨-, -, -, -, -, -, e0, e1⟩ := lin0_idx t
  have hx : win0_3.xinj (grid0.coords t) j = ix2 (⟨(j 0).val, (j 0).isLt⟩ : Fin 5000) (⟨(j 1).val, (j 1).isLt⟩ : Fin 128) := by
    funext a
    match a with
    | ⟨0, _⟩ => rfl
    | ⟨1, _⟩ => rfl
  show out0_3 (F := Ideal) (iblk0 V c 0 t) (iblk0 V c 1 t) (iblk0 V c 2 t) (win0_3.xinj (grid0.coords t) j)
    = lin0_G V c (((cfg0.win 3).blk t).view.emb j)
  rw [hx]
  exact lin0_point V c t _ _ _ _
    (by show win0_3.index t (0 : Fin 2) * 5000 + 1 * (j 0).val = t.val * 5000 + (j 0).val; rw [e0]; omega)
    (by show win0_3.index t (1 : Fin 2) * 128 + 1 * (j 1).val = (j 1).val; rw [e1]; omega)

theorem lin0_mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

theorem lin0_cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  refine ⟨t, lin0_flush t, ?_⟩
  rw [lin0_mem_blk]
  obtain ⟨-, -, -, -, -, -, e0, e1⟩ := lin0_idx t
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

theorem lin0_final (V : (c : Dev nD) → (b : Ref sig .tc) → Buf (Elt Ideal) ((c : Thread nD τ).loc b)) (c : Dev nD) (n : Fin 50000) (d : Fin 128) :
    (dat0 (F := Ideal) V c).arrAt 3 cfg0.N (ix2 n d)
      = Cert.Spec.lin (fun n k => V c main_arg0 (ix2 n k)) (fun n => V c main_v10 (ix2 n 0)) (fun k d => V c main_arg1 (ix2 k d)) n d :=
  congrFun ((dat0 (F := Ideal) V c).arrAt_eq_of_cover 3 (lin0_G V c) (fun t _ => lin0_flushed V c t) lin0_cover) (ix2 n d)

end Cert.KernelIdeal.Val

end
-- ==== Proof.Val.GatherValue1.lean ====
import proofs.«411707_j25580825215441_1_alg».proof.Proof.KI.GatherBody1
import proofs.«411707_j25580825215441_1_alg».proof.Proof.Spec
import proofs.«411707_j25580825215441_1_alg».proof.Proof.SumLaws
import proofs.«411707_j25580825215441_1_alg».proof.Proof.Val.Payloads
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

def featN1 (c : Dev nD) (n : ℕ) (d : Fin 128) : EReal :=
  if h : n < 50000 then V c main_v17 (ix2 (⟨n, h⟩ : Fin 50000) d) else 0

def srcN1 (c : Dev nD) (r : ℕ) : BitVec 32 :=
  if h : r < 600000 then V c main_v15 (ix2 (⟨r, h⟩ : Fin 600000) (0 : Fin 1)) else 0

def part1 (c : Dev nD) (r : ℕ) (d : Fin 128) (b : ℕ) : EReal :=
  ∑ j : Fin 1000, (if srcN1 V c r = BitVec.ofNat 32 (b * 1000 + j.val) then (1 : EReal) else 0) * featN1 V c (b * 1000 + j.val) d

theorem N1_eq : cfg1.N = 12500 := N_1

theorem idx_facts1 : ∀ t : Fin cfg1.N,
    win1_0.index t (0 : Fin 2) = t.val % 50 ∧ win1_0.index t (1 : Fin 2) = 0
    ∧ win1_1.index t (0 : Fin 2) = t.val / 50 ∧ win1_1.index t (1 : Fin 2) = 0
    ∧ win1_2.index t (0 : Fin 2) = t.val / 50 ∧ win1_2.index t (1 : Fin 2) = 0
    ∧ ((grid1.coords t) (1 : Fin 2)).val = t.val % 50 :=
  (by decide +kernel : ∀ t : Fin grid1.N, _)

theorem feat_block1 (c : Dev nD) (t : Fin cfg1.N) (j : Fin 1000) (d : Fin 128) :
    (iblk1 V c 0 t : Vec Ideal S1000x128 .f32) (ix2 j d) = featN1 V c (t.val % 50 * 1000 + j.val) d := by
  obtain ⟨e0, e1, -, -, -, -, -⟩ := idx_facts1 t
  have hlt : t.val % 50 * 1000 + j.val < 50000 := by have := j.isLt; omega
  unfold featN1
  rw [dif_pos hlt]
  unfold iblk1
  show V c main_v17 (((cfg1.win 0).blk t).view.emb (ix2 j d)) = V c main_v17 (ix2 (⟨t.val % 50 * 1000 + j.val, hlt⟩ : Fin 50000) d)
  congr 1
  funext a
  apply Fin.ext
  match a with
  | ⟨0, _⟩ => show win1_0.index t (0 : Fin 2) * 1000 + 1 * j.val = t.val % 50 * 1000 + j.val; rw [e0]; omega
  | ⟨1, _⟩ => show win1_0.index t (1 : Fin 2) * 128 + 1 * d.val = d.val; rw [e1]; omega

theorem src_block1 (c : Dev nD) (t : Fin cfg1.N) (e : Fin 2400) :
    (iblk1 V c 1 t : Vec Ideal S2400x1 .i32) (ix2 e (0 : Fin 1)) = srcN1 V c (t.val / 50 * 2400 + e.val) := by
  obtain ⟨-, -, e2, e3, -, -, -⟩ := idx_facts1 t
  have ht : t.val < 12500 := N1_eq ▸ t.isLt
  have hlt : t.val / 50 * 2400 + e.val < 600000 := by have := e.isLt; omega
  unfold srcN1
  rw [dif_pos hlt]
  unfold iblk1
  show V c main_v15 (((cfg1.win 1).blk t).view.emb (ix2 e (0 : Fin 1))) = V c main_v15 (ix2 (⟨t.val / 50 * 2400 + e.val, hlt⟩ : Fin 600000) (0 : Fin 1))
  congr 1
  funext a
  apply Fin.ext
  match a with
  | ⟨0, _⟩ => show win1_1.index t (0 : Fin 2) * 2400 + 1 * e.val = t.val / 50 * 2400 + e.val; rw [e2]; omega
  | ⟨1, _⟩ => show win1_1.index t (1 : Fin 2) * 1 + 1 * 0 = 0; rw [e3]

theorem step_at1 (c : Dev nD) (t : Fin cfg1.N) (acc : Vec Ideal S2400x128 .f32) (e : Fin 2400) (d : Fin 128) :
    k1_pay2 (F := Ideal) (grid1.coords t) (iblk1 V c 1 t) (iblk1 V c 0 t) acc (ix2 e d)
      = acc (ix2 e d) + part1 V c (t.val / 50 * 2400 + e.val) d (t.val % 50) := by
  obtain ⟨-, -, -, -, -, -, e6⟩ := idx_facts1 t
  refine (k1_pay2_apply (grid1.coords t) (iblk1 V c 1 t) (iblk1 V c 0 t) acc e d).trans ?_
  congr 1
  unfold part1
  apply Finset.sum_congr rfl
  intro j _
  rw [src_block1 V c t e, feat_block1 V c t j d, e6]

theorem acc1_reset (c : Dev nD) (n : ℕ) (hn : n < cfg1.N) (h0 : n % 50 = 0) :
    acc1 V c n hn = k1_pay2 (grid1.coords ⟨n, hn⟩) (iblk1 V c 1 ⟨n, hn⟩) (iblk1 V c 0 ⟨n, hn⟩) (k1_pay1 (F := Ideal)) := by
  cases n with
  | zero => rw [acc1]
  | succ m => rw [acc1, if_pos h0]

theorem acc1_carry (c : Dev nD) (n : ℕ) (hn : n + 1 < cfg1.N) (h0 : ¬(n + 1) % 50 = 0) :
    acc1 V c (n + 1) hn = k1_pay2 (grid1.coords ⟨n + 1, hn⟩) (iblk1 V c 1 ⟨n + 1, hn⟩) (iblk1 V c 0 ⟨n + 1, hn⟩)
      (acc1 V c n (Nat.lt_of_succ_lt hn)) := by
  rw [acc1, if_neg h0]

theorem acc1_partial (c : Dev nD) (ei : ℕ) (e : Fin 2400) (d : Fin 128) :
    ∀ k : ℕ, k < 50 → ∀ (n : ℕ) (hn : n < cfg1.N), n = ei * 50 + k →
      acc1 V c n hn (ix2 e d) = ∑ b ∈ Finset.range (k + 1), part1 V c (ei * 2400 + e.val) d b := by
  intro k
  induction k with
  | zero =>
    intro _ n hn hnk
    have h0 : n % 50 = 0 := by omega
    have hq : n / 50 = ei := by omega
    rw [acc1_reset V c n hn h0, step_at1 V c ⟨n, hn⟩ _ e d, k1_pay1_apply, Finset.sum_range_one, zero_add]
    show part1 V c (n / 50 * 2400 + e.val) d (n % 50) = _
    rw [h0, hq]
  | succ k ih =>
    intro hk n hn hnk
    obtain ⟨m, rfl⟩ : ∃ m, n = m + 1 := ⟨ei * 50 + k, by omega⟩
    have h0 : ¬(m + 1) % 50 = 0 := by omega
    have hq : (m + 1) / 50 = ei := by omega
    have hr : (m + 1) % 50 = k + 1 := by omega
    rw [acc1_carry V c m hn h0, step_at1 V c ⟨m + 1, hn⟩ _ e d, ih (by omega) m (Nat.lt_of_succ_lt hn) (by omega),
      Finset.sum_range_succ _ (k + 1)]
    show _ + part1 V c ((m + 1) / 50 * 2400 + e.val) d ((m + 1) % 50) = _
    rw [hq, hr]

theorem parts_eq_gat1 (c : Dev nD) (r : Fin 600000) (d : Fin 128) :
    ∑ b ∈ Finset.range 50, part1 V c r.val d b
      = Cert.Spec.gat (fun n d => V c main_v17 (ix2 n d)) (fun e => V c main_v15 (ix2 e 0)) r d := by
  rw [← Fin.sum_univ_eq_sum_range (fun b => part1 V c r.val d b) 50]
  have hsrc : srcN1 V c r.val = V c main_v15 (ix2 r (0 : Fin 1)) := by
    unfold srcN1; rw [dif_pos r.isLt]
  have hsum : ∀ b : Fin 50, part1 V c r.val d b.val
      = ∑ j : Fin 1000, (if V c main_v15 (ix2 r (0 : Fin 1)) = BitVec.ofNat 32 (b.val * 1000 + j.val) then (1 : EReal) else 0)
          * (fun n d => V c main_v17 (ix2 n d)) (⟨b.val * 1000 + j.val, by have := b.isLt; have := j.isLt; omega⟩ : Fin 50000) d := by
    intro b
    unfold part1
    apply Finset.sum_congr rfl
    intro j _
    have hlt : b.val * 1000 + j.val < 50000 := by have := b.isLt; have := j.isLt; omega
    rw [hsrc]
    unfold featN1
    rw [dif_pos hlt]
  rw [Finset.sum_congr rfl (fun b _ => hsum b)]
  exact Cert.Spec.gat_blocked (fun n d => V c main_v17 (ix2 n d)) (V c main_v15 (ix2 r (0 : Fin 1))) d

abbrev G1 (c : Dev nD) : S600000x128.Idx → EReal :=
  fun i => Cert.Spec.gat (fun n d => V c main_v17 (ix2 n d)) (fun e => V c main_v15 (ix2 e 0)) (i 0) (i 1)

theorem flushed1_eq (c : Dev nD) (t : Fin cfg1.N) (hf : (cfg1.win 2).flush t = true) :
    (dat1 (F := Ideal) V c).flushed 2 t = ((cfg1.win 2).blk t).view.read (Elt Ideal) (G1 V c) := by
  have h49 : t.val % 50 = 49 := (flush1_2 t).mp hf
  have ht : t.val < 12500 := N1_eq ▸ t.isLt
  obtain ⟨-, -, -, -, e4, e5, -⟩ := idx_facts1 t
  show (cfg1.win 2).cut (grid1.coords t) ((dat1 (F := Ideal) V c).after 2 t) = _
  rw [after1_2]
  funext y
  obtain ⟨e, d, rfl⟩ : ∃ (e : Fin 2400) (d : Fin 128), y = ix2 e d := ⟨y 0, y 1, eq_ix2 y⟩
  have hlt : t.val / 50 * 2400 + e.val < 600000 := by have := e.isLt; omega
  have hemb : ((cfg1.win 2).blk t).view.emb (ix2 e d) = ix2 (⟨t.val / 50 * 2400 + e.val, hlt⟩ : Fin 600000) d := by
    funext a
    apply Fin.ext
    match a with
    | ⟨0, _⟩ => show win1_2.index t (0 : Fin 2) * 2400 + 1 * e.val = t.val / 50 * 2400 + e.val; rw [e4]; omega
    | ⟨1, _⟩ => show win1_2.index t (1 : Fin 2) * 128 + 1 * d.val = d.val; rw [e5]; omega
  show k1_pay3 (F := Ideal) (acc1 V c t.val t.isLt) (ix2 e d) = G1 V c (((cfg1.win 2).blk t).view.emb (ix2 e d))
  rw [hemb, k1_pay3_apply, acc1_partial V c (t.val / 50) e d 49 (by omega) t.val t.isLt (by omega)]
  exact parts_eq_gat1 V c ⟨t.val / 50 * 2400 + e.val, hlt⟩ d

theorem mem_blk1 (t : Fin cfg1.N) (i : S600000x128.Idx) :
    i ∈ ((cfg1.win 2).blk t).view.set ↔ ∀ a : Fin 2, win1_2.index t a * S2400x128.size a ≤ (i a).val ∧ (i a).val < win1_2.index t a * S2400x128.size a + S2400x128.size a := by
  show i ∈ ((View.whole main_v18).slice (win1_2.rect t)).set ↔ _
  rw [View.set_slice_whole, Rect.mem_set_unit]
  exact Iff.rfl

theorem cover1 (i : S600000x128.Idx) :
    ∃ t : Fin cfg1.N, (cfg1.win 2).flush t = true ∧ i ∈ ((cfg1.win 2).blk t).view.set := by
  have hi0 : (i 0).val < 600000 := (i 0).isLt
  have hi1 : (i 1).val < 128 := (i 1).isLt
  have hlt : (i 0).val / 2400 * 50 + 49 < cfg1.N := by rw [N1_eq]; omega
  obtain ⟨-, -, -, -, e4, e5, -⟩ := idx_facts1 ⟨(i 0).val / 2400 * 50 + 49, hlt⟩
  dsimp only at e4 e5
  refine ⟨⟨(i 0).val / 2400 * 50 + 49, hlt⟩, (flush1_2 _).mpr (by dsimp only; omega), ?_⟩
  rw [mem_blk1]
  intro a
  match a with
  | ⟨0, _⟩ =>
    show win1_2.index ⟨(i 0).val / 2400 * 50 + 49, hlt⟩ (0 : Fin 2) * 2400 ≤ (i 0).val
      ∧ (i 0).val < win1_2.index ⟨(i 0).val / 2400 * 50 + 49, hlt⟩ (0 : Fin 2) * 2400 + 2400
    rw [e4]; omega
  | ⟨1, _⟩ =>
    show win1_2.index ⟨(i 0).val / 2400 * 50 + 49, hlt⟩ (1 : Fin 2) * 128 ≤ (i 1).val
      ∧ (i 1).val < win1_2.index ⟨(i 0).val / 2400 * 50 + 49, hlt⟩ (1 : Fin 2) * 128 + 128
    rw [e5]; omega

theorem final1 (c : Dev nD) : (dat1 (F := Ideal) V c).arrAt 2 cfg1.N = G1 V c :=
  (dat1 (F := Ideal) V c).arrAt_eq_of_cover 2 (G1 V c) (fun t hf => flushed1_eq V c t hf) cover1

theorem gat1_final (c : Dev nD) (e : Fin 600000) (d : Fin 128) :
    (dat1 (F := Ideal) V c).arrAt 2 cfg1.N (ix2 e d)
      = Cert.Spec.gat (fun n d => V c main_v17 (ix2 n d)) (fun e => V c main_v15 (ix2 e 0)) e d := by
  rw [final1 V c]

end Cert.KernelIdeal.Val

end
-- ==== Proof.Val.ScatterValue2.lean ====
import proofs.«411707_j25580825215441_1_alg».proof.Proof.KI.ScatterBody2
import proofs.«411707_j25580825215441_1_alg».proof.Proof.Spec
import proofs.«411707_j25580825215441_1_alg».proof.Proof.SumLaws
import proofs.«411707_j25580825215441_1_alg».proof.Proof.Val.Payloads
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.Pipeline (Dat)
open Idealize.ShloMosaic.TcCoe

variable (V : (c : Dev nD) → (b : Ref sig .tc) → Buf (Elt Ideal) ((c : Thread nD τ).loc b))

theorem blockIdx2 : ∀ t : Fin cfg2.N,
    (win2_0.index t (0 : Fin 2) = t.val % 250 ∧ win2_0.index t (1 : Fin 2) = 0)
    ∧ (win2_1.index t (0 : Fin 2) = t.val % 250 ∧ win2_1.index t (1 : Fin 2) = 0)
    ∧ (win2_2.index t (0 : Fin 2) = t.val / 250 ∧ win2_2.index t (1 : Fin 2) = 0)
    ∧ (win2_3.index t (0 : Fin 2) = 0 ∧ win2_3.index t (1 : Fin 2) = 0)
    ∧ (win2_4.index t (0 : Fin 2) = t.val / 250 ∧ win2_4.index t (1 : Fin 2) = 0)
    ∧ ((grid2.coords t) (0 : Fin 2)).val = t.val / 250 :=
  (by decide +kernel : ∀ t : Fin grid2.N, _)

theorem iblk2_0_apply (c : Dev nD) (t : Fin cfg2.N) (e : Fin 2400) (d : Fin 128) (k : Fin 600000)
    (hk : k.val = t.val % 250 * 2400 + e.val) :
    (iblk2 V c 0 t : Vec Ideal S2400x128 .bf16) (ix2 e d) = V c main_v18 (ix2 k d) := by
  obtain ⟨⟨e0, e1⟩, -⟩ := blockIdx2 t
  unfold iblk2
  rw [View.read_apply]
  show V c main_v18 _ = V c main_v18 _
  congr 1
  funext a
  apply Fin.ext
  match a with
  | ⟨0, _⟩ => show win2_0.index t (0 : Fin 2) * 2400 + 1 * e.val = k.val; rw [e0, hk]; omega
  | ⟨1, _⟩ => show win2_0.index t (1 : Fin 2) * 128 + 1 * d.val = d.val; rw [e1]; omega

theorem iblk2_1_apply (c : Dev nD) (t : Fin cfg2.N) (e : Fin 2400) (k : Fin 600000)
    (hk : k.val = t.val % 250 * 2400 + e.val) :
    (iblk2 V c 1 t : Vec Ideal S2400x1 .i32) (ix2 e 0) = V c main_v16 (ix2 k 0) := by
  obtain ⟨-, ⟨e0, e1⟩, -⟩ := blockIdx2 t
  unfold iblk2
  rw [View.read_apply]
  show V c main_v16 _ = V c main_v16 _
  congr 1
  funext a
  apply Fin.ext
  match a with
  | ⟨0, _⟩ => show win2_1.index t (0 : Fin 2) * 2400 + 1 * e.val = k.val; rw [e0, hk]; omega
  | ⟨1, _⟩ => show win2_1.index t (1 : Fin 2) * 1 + 1 * 0 = 0; rw [e1]

theorem iblk2_2_apply (c : Dev nD) (t : Fin cfg2.N) (n : Fin 1000) (k : Fin 50000)
    (hk : k.val = t.val / 250 * 1000 + n.val) :
    (iblk2 V c 2 t : Vec Ideal S1000x1 .f32) (ix2 n 0) = V c main_v14 (ix2 k 0) := by
  obtain ⟨-, -, ⟨e0, e1⟩, -⟩ := blockIdx2 t
  unfold iblk2
  rw [View.read_apply]
  show V c main_v14 _ = V c main_v14 _
  congr 1
  funext a
  apply Fin.ext
  match a with
  | ⟨0, _⟩ => show win2_2.index t (0 : Fin 2) * 1000 + 1 * n.val = k.val; rw [e0, hk]; omega
  | ⟨1, _⟩ => show win2_2.index t (1 : Fin 2) * 1 + 1 * 0 = 0; rw [e1]

theorem iblk2_3_apply (c : Dev nD) (t : Fin cfg2.N) (d : Fin 128) :
    (iblk2 V c 3 t : Vec Ideal S1x128 .f32) (ix2 0 d) = V c main_v19 (ix2 0 d) := by
  obtain ⟨-, -, -, ⟨e0, e1⟩, -⟩ := blockIdx2 t
  unfold iblk2
  rw [View.read_apply]
  show V c main_v19 _ = V c main_v19 _
  congr 1
  funext a
  apply Fin.ext
  match a with
  | ⟨0, _⟩ => show win2_3.index t (0 : Fin 2) * 1 + 1 * 0 = 0; rw [e0]
  | ⟨1, _⟩ => show win2_3.index t (1 : Fin 2) * 128 + 1 * d.val = d.val; rw [e1]; omega

theorem acc2_of_mod_zero (c : Dev nD) (t : ℕ) (ht : t < cfg2.N) (h0 : t % 250 = 0) :
    acc2 V c t ht = k2_pay2 (grid2.coords ⟨t, ht⟩) (iblk2 V c 1 ⟨t, ht⟩) (iblk2 V c 0 ⟨t, ht⟩) (k2_pay1 (F := Ideal)) := by
  cases t with
  | zero => rw [acc2]
  | succ m => rw [acc2, if_pos h0]

theorem acc2_of_mod_ne (c : Dev nD) (t : ℕ) (ht : t + 1 < cfg2.N) (h0 : ¬(t + 1) % 250 = 0) :
    acc2 V c (t + 1) ht = k2_pay2 (grid2.coords ⟨t + 1, ht⟩) (iblk2 V c 1 ⟨t + 1, ht⟩) (iblk2 V c 0 ⟨t + 1, ht⟩)
      (acc2 V c t (Nat.lt_of_succ_lt ht)) := by
  rw [acc2, if_neg h0]

def addend2 (c : Dev nD) (q : ℕ) (n : Fin 1000) (d : Fin 128) (b : ℕ) : EReal :=
  ∑ j : Fin 2400, if h : b * 2400 + j.val < 600000 then
    (if V c main_v16 (ix2 (⟨b * 2400 + j.val, h⟩ : Fin 600000) 0) = BitVec.ofNat 32 (q * 1000 + n.val) then (1 : EReal) else 0)
      * V c main_v18 (ix2 (⟨b * 2400 + j.val, h⟩ : Fin 600000) d)
  else 0

theorem pay2_point (c : Dev nD) (t : Fin cfg2.N) (q k : ℕ) (hk : k < 250) (ht : t.val = q * 250 + k)
    (v17 : Vec Ideal S1000x128 .f32) (n : Fin 1000) (d : Fin 128) :
    k2_pay2 (F := Ideal) (grid2.coords t) (iblk2 V c 1 t) (iblk2 V c 0 t) v17 (ix2 n d)
      = v17 (ix2 n d) + addend2 V c q n d k := by
  refine (k2_pay2_apply (grid2.coords t) (iblk2 V c 1 t) (iblk2 V c 0 t) v17 n d).trans ?_
  obtain ⟨-, -, -, -, -, e0⟩ := blockIdx2 t
  have hm : t.val % 250 = k := by omega
  have hq : t.val / 250 = q := by omega
  congr 1
  unfold addend2
  refine Finset.sum_congr rfl fun j _ => ?_
  have hj : j.val < 2400 := j.isLt
  have hlt : k * 2400 + j.val < 600000 := by omega
  rw [dif_pos hlt, iblk2_1_apply V c t j ⟨k * 2400 + j.val, hlt⟩ (by rw [hm]),
    iblk2_0_apply V c t j d ⟨k * 2400 + j.val, hlt⟩ (by rw [hm]), e0, hq]

theorem acc2_start (c : Dev nD) (q : ℕ) (ht : q * 250 < cfg2.N) (n : Fin 1000) (d : Fin 128) :
    acc2 V c (q * 250) ht (ix2 n d) = 0 + addend2 V c q n d 0 := by
  rw [acc2_of_mod_zero V c (q * 250) ht (by omega),
    pay2_point V c ⟨q * 250, ht⟩ q 0 (by norm_num) (by simp) (k2_pay1 (F := Ideal)) n d, k2_pay1_apply]

theorem acc2_step (c : Dev nD) (q k : ℕ) (hk : k + 1 < 250) (ht : q * 250 + (k + 1) < cfg2.N) (n : Fin 1000) (d : Fin 128) :
    acc2 V c (q * 250 + (k + 1)) ht (ix2 n d)
      = acc2 V c (q * 250 + k) (Nat.lt_of_succ_lt ht) (ix2 n d) + addend2 V c q n d (k + 1) := by
  show acc2 V c ((q * 250 + k) + 1) ht (ix2 n d) = _
  rw [acc2_of_mod_ne V c (q * 250 + k) ht (by omega),
    pay2_point V c ⟨q * 250 + k + 1, ht⟩ q (k + 1) hk rfl _ n d]

theorem acc2_row (c : Dev nD) (q : ℕ) (hq : q < 50) (ht : q * 250 + 249 < cfg2.N) (n : Fin 1000) (d : Fin 128) :
    acc2 V c (q * 250 + 249) ht (ix2 n d) = ∑ b : Fin 250, addend2 V c q n d b.val := by
  have hN : cfg2.N = 12500 := N_2
  have key := Cert.Spec.running_sum_fin 249
    (fun k => if h : k < 250 then acc2 V c (q * 250 + k) (by rw [hN]; omega) (ix2 n d) else 0)
    (fun b => addend2 V c q n d b)
    (by
      show (if h : 0 < 250 then acc2 V c (q * 250 + 0) _ (ix2 n d) else 0) = _
      rw [dif_pos (by norm_num)]
      exact acc2_start V c q _ n d)
    (by
      intro k hk
      show (if h : k + 1 < 250 then acc2 V c (q * 250 + (k + 1)) _ (ix2 n d) else 0)
        = (if h : k < 250 then acc2 V c (q * 250 + k) _ (ix2 n d) else 0) + _
      rw [dif_pos (by omega : k + 1 < 250), dif_pos (by omega : k < 250)]
      exact acc2_step V c q k (by omega) _ n d)
  have key' : (if h : 249 < 250 then acc2 V c (q * 250 + 249) (by rw [hN]; omega) (ix2 n d) else 0)
      = ∑ b : Fin 250, addend2 V c q n d b.val := key
  rw [dif_pos (by norm_num)] at key'
  exact key'

def out2 (c : Dev nD) : S50000x128.Idx → EReal := fun i =>
  max (Cert.Spec.sca (fun e d => V c main_v18 (ix2 e d)) (fun e => V c main_v16 (ix2 e 0)) (i 0) (i 1)
    * V c main_v14 (ix2 (i 0) 0) + V c main_v19 (ix2 0 (i 1))) 0

theorem sum_addend2 (c : Dev nD) (q : ℕ) (n : Fin 1000) (d : Fin 128) (k : Fin 50000) (hk : k.val = q * 1000 + n.val) :
    (∑ b : Fin 250, addend2 V c q n d b.val)
      = Cert.Spec.sca (fun e d => V c main_v18 (ix2 e d)) (fun e => V c main_v16 (ix2 e 0)) k d := by
  rw [← Cert.Spec.sca_blocked]
  refine Finset.sum_congr rfl fun b _ => ?_
  unfold addend2
  refine Finset.sum_congr rfl fun j _ => ?_
  have hb : b.val < 250 := b.isLt
  have hj : j.val < 2400 := j.isLt
  rw [dif_pos (by omega : b.val * 2400 + j.val < 600000), hk]

theorem out_point2 (c : Dev nD) (t : Fin cfg2.N) (h249 : t.val % 250 = 249) (j : S1000x128.Idx) (i : S50000x128.Idx)
    (hi0 : (i 0).val = t.val / 250 * 1000 + (j 0).val) (hi1 : (i 1).val = (j 1).val) :
    k2_pay3 (F := Ideal) (acc2 V c t.val t.isLt) (iblk2 V c 2 t) (iblk2 V c 3 t) j = out2 V c i := by
  obtain ⟨n, d, rfl⟩ : ∃ a b, j = ix2 a b := ⟨j 0, j 1, eq_ix2 j⟩
  obtain ⟨k, d', rfl⟩ : ∃ a b, i = ix2 a b := ⟨i 0, i 1, eq_ix2 i⟩
  obtain rfl : d = d' := Fin.ext hi1.symm
  have hk : k.val = t.val / 250 * 1000 + n.val := hi0
  have hN : cfg2.N = 12500 := N_2
  have htl : t.val < 12500 := hN ▸ t.isLt
  have hq : t.val / 250 < 50 := by omega
  have hte : t.val = t.val / 250 * 250 + 249 := by omega
  have hacc : acc2 V c t.val t.isLt (ix2 n d) = ∑ b : Fin 250, addend2 V c (t.val / 250) n d b.val := by
    have h := acc2_row V c (t.val / 250) hq (by rw [← hte]; exact t.isLt) n d
    have same : ∀ (u : ℕ) (hu : u < cfg2.N), u = t.val → acc2 V c u hu = acc2 V c t.val t.isLt :=
      fun u hu e => by subst e; rfl
    rw [← same _ _ hte.symm]
    exact h
  refine (k2_pay3_apply (acc2 V c t.val t.isLt) (iblk2 V c 2 t) (iblk2 V c 3 t) n d).trans ?_
  rw [hacc, sum_addend2 V c (t.val / 250) n d k hk, iblk2_2_apply V c t n k hk, iblk2_3_apply V c t d]
  rfl

theorem flushed2_eq (c : Dev nD) (t : Fin cfg2.N) (hf : (cfg2.win 4).flush t = true) :
    (dat2 V c).flushed 4 t = ((cfg2.win 4).blk t).view.read (Elt Ideal) (out2 V c) := by
  have h249 : t.val % 250 = 249 := (flush2_4 t).mp hf
  obtain ⟨-, -, -, -, ⟨e0, e1⟩, -⟩ := blockIdx2 t
  show (cfg2.win 4).cut (grid2.coords t) ((dat2 V c).after 4 t) = _
  rw [after2_4]
  funext j
  show k2_pay3 (F := Ideal) (acc2 V c t.val t.isLt) (iblk2 V c 2 t) (iblk2 V c 3 t) j
    = out2 V c (((cfg2.win 4).blk t).view.emb j)
  refine out_point2 V c t h249 j _ ?_ ?_
  · show win2_4.index t (0 : Fin 2) * 1000 + 1 * (j 0).val = _
    rw [e0]; omega
  · show win2_4.index t (1 : Fin 2) * 128 + 1 * (j 1).val = _
    rw [e1]; omega

theorem mem_blk2 (t : Fin cfg2.N) (i : S50000x128.Idx) :
    i ∈ ((cfg2.win 4).blk t).view.set ↔ ∀ a : Fin 2, win2_4.index t a * S1000x128.size a ≤ (i a).val ∧ (i a).val < win2_4.index t a * S1000x128.size a + S1000x128.size a := by
  show i ∈ ((View.whole main_v20).slice (win2_4.rect t)).set ↔ _
  rw [View.set_slice_whole, Rect.mem_set_unit]
  exact Iff.rfl

theorem cover2 (i : S50000x128.Idx) : ∃ t : Fin cfg2.N, (cfg2.win 4).flush t = true ∧ i ∈ ((cfg2.win 4).blk t).view.set := by
  have hN : cfg2.N = 12500 := N_2
  have hi0 : (i 0).val < 50000 := idx2_lt0 i
  have hi1 : (i 1).val < 128 := idx2_lt1 i
  have htN : (i 0).val / 1000 * 250 + 249 < cfg2.N := by rw [hN]; omega
  refine ⟨⟨(i 0).val / 1000 * 250 + 249, htN⟩, (flush2_4 _).mpr (by show ((i 0).val / 1000 * 250 + 249) % 250 = 249; omega), ?_⟩
  obtain ⟨-, -, -, -, ⟨e0, e1⟩, -⟩ := blockIdx2 ⟨(i 0).val / 1000 * 250 + 249, htN⟩
  have e0' : win2_4.index ⟨(i 0).val / 1000 * 250 + 249, htN⟩ (0 : Fin 2) = (i 0).val / 1000 := by
    rw [e0]; show ((i 0).val / 1000 * 250 + 249) / 250 = _; omega
  rw [mem_blk2]
  intro a
  match a with
  | ⟨0, _⟩ =>
    show win2_4.index _ (0 : Fin 2) * 1000 ≤ (i 0).val ∧ (i 0).val < win2_4.index _ (0 : Fin 2) * 1000 + 1000
    rw [e0']; omega
  | ⟨1, _⟩ =>
    show win2_4.index _ (1 : Fin 2) * 128 ≤ (i 1).val ∧ (i 1).val < win2_4.index _ (1 : Fin 2) * 128 + 128
    rw [e1]; omega

theorem final2 (c : Dev nD) : (dat2 V c).arrAt 4 cfg2.N = out2 V c :=
  (dat2 V c).arrAt_eq_of_cover 4 (out2 V c) (flushed2_eq V c) cover2

theorem sca2_final (c : Dev nD) (n : Fin 50000) (d : Fin 128) :
    ((dat2 (F := Ideal) V c).arrAt 4 cfg2.N (ix2 n d) : EReal)
      = max (Cert.Spec.sca (fun e d => V c main_v18 (ix2 e d)) (fun e => V c main_v16 (ix2 e 0)) n d * V c main_v14 (ix2 n 0) + V c main_v19 (ix2 0 d)) 0 :=
  congrFun (final2 V c) (ix2 n d)

end Cert.KernelIdeal.Val

end
-- ==== Proof.Val.LinValue3.lean ====
import proofs.«411707_j25580825215441_1_alg».proof.Proof.KI.LinBody3
import proofs.«411707_j25580825215441_1_alg».proof.Proof.Spec
import proofs.«411707_j25580825215441_1_alg».proof.Proof.SumLaws
import proofs.«411707_j25580825215441_1_alg».proof.Proof.Val.Payloads
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Hand Idealize.ShloMosaic Idealize.ShloMosaic.ValueIdx Idealize.ShloMosaic.TcCoe

variable (V : (c : Dev nD) → (b : Ref sig .tc) → Buf (Elt Ideal) ((c : Thread nD τ).loc b))

theorem lin3_hz : (![0, 0] : Fin 2 → Nat) = fun _ => 0 := funext fun a => by fin_cases a <;> rfl

theorem lin3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lin3_flush : ∀ t : Fin cfg3.N, (cfg3.win 3).flush t = true :=
  (by decide +kernel : ∀ t : Fin grid3.N, win3_3.flush t = true)

theorem lin3_blk0 (c : Dev nD) (t : Fin cfg3.N) (p : Fin 5000) (k : Fin 128) (n : Fin 50000)
    (hn : n.val = t.val * 5000 + p.val) :
    (iblk3 V c 0 t : Vec Ideal S5000x128 .f32) (ix2 p k) = V c main_v20 (ix2 n k) := by
  obtain ⟨e0, e1, -⟩ := lin3_idx t
  unfold iblk3
  rw [View.read_apply]
  show V c main_v20 _ = V c main_v20 _
  congr 1
  funext a; apply Fin.ext
  match a with
  | ⟨0, _⟩ => show win3_0.index t (0 : Fin 2) * 5000 + 1 * p.val = n.val; rw [e0, hn]; omega
  | ⟨1, _⟩ => show win3_0.index t (1 : Fin 2) * 128 + 1 * k.val = k.val; rw [e1]; omega

theorem lin3_blk1 (c : Dev nD) (t : Fin cfg3.N) (p : Fin 5000) (n : Fin 50000)
    (hn : n.val = t.val * 5000 + p.val) :
    (iblk3 V c 1 t : Vec Ideal S5000x1 .f32) (ix2 p 0) = V c main_v10 (ix2 n 0) := by
  obtain ⟨-, -, e0, e1, -⟩ := lin3_idx t
  unfold iblk3
  rw [View.read_apply]
  show V c main_v10 _ = V c main_v10 _
  congr 1
  funext a; apply Fin.ext
  match a with
  | ⟨0, _⟩ => show win3_1.index t (0 : Fin 2) * 5000 + 1 * p.val = n.val; rw [e0, hn]; omega
  | ⟨1, _⟩ => show win3_1.index t (1 : Fin 2) * 1 + 1 * 0 = 0; rw [e1]

theorem lin3_blk2 (c : Dev nD) (t : Fin cfg3.N) (k : Fin 128) (q : Fin 64) :
    (iblk3 V c 2 t : Vec Ideal S128x64 .f32) (ix2 k q) = V c main_arg3 (ix2 k q) := by
  obtain ⟨-, -, -, -, e0, e1, -⟩ := lin3_idx t
  unfold iblk3
  rw [View.read_apply]
  show V c main_arg3 _ = V c main_arg3 _
  congr 1
  funext a; apply Fin.ext
  match a with
  | ⟨0, _⟩ => show win3_2.index t (0 : Fin 2) * 128 + 1 * k.val = k.val; rw [e0]; omega
  | ⟨1, _⟩ => show win3_2.index t (1 : Fin 2) * 64 + 1 * q.val = q.val; rw [e1]; omega

theorem lin3_out_apply (x0 : Vec Ideal S5000x128 .f32) (x1 : Vec Ideal S5000x1 .f32) (x2 : Vec Ideal S128x64 .f32)
    (p : Fin 5000) (q : Fin 64) :
    out3_3 (F := Ideal) x0 x1 x2 (ix2 p q) = ∑ k : Fin 128, (x0 (ix2 p k) * x1 (ix2 p 0)) * x2 (ix2 k q) := by
  unfold out3_3
  rw [View.canon_unit_zero lin3_hz]
  simp only [View.ld_unit_zero (S := S5000x128) lin3_hz, View.ld_unit_zero (S := S5000x1) lin3_hz,
    View.ld_unit_zero (S := S128x64) lin3_hz]
  exact k3_pay1_apply x0 x1 x2 p q

abbrev lin3_G (c : Dev nD) : S50000x64.Idx → Elt Ideal .f32 := fun i =>
  Cert.Spec.lin (fun n k => V c main_v20 (ix2 n k)) (fun n => V c main_v10 (ix2 n 0)) (fun k d => V c main_arg3 (ix2 k d)) (i 0) (i 1)

theorem lin3_point (c : Dev nD) (t : Fin cfg3.N) (p : Fin 5000) (q : Fin 64) (n : Fin 50000) (d : Fin 64)
    (hn : n.val = t.val * 5000 + p.val) (hd : d.val = q.val) :
    out3_3 (F := Ideal) (iblk3 V c 0 t) (iblk3 V c 1 t) (iblk3 V c 2 t) (ix2 p q)
      = Cert.Spec.lin (fun n k => V c main_v20 (ix2 n k)) (fun n => V c main_v10 (ix2 n 0)) (fun k d => V c main_arg3 (ix2 k d)) n d := by
  have e : d = q := Fin.ext hd
  subst e
  rw [lin3_out_apply]
  unfold Cert.Spec.lin
  refine Finset.sum_congr rfl fun k _ => ?_
  rw [lin3_blk0 V c t p k n hn, lin3_blk1 V c t p n hn, lin3_blk2 V c t k _]

theorem lin3_flushed (c : Dev nD) (t : Fin cfg3.N) :
    (dat3 (F := Ideal) V c).flushed 3 t = ((cfg3.win 3).blk t).view.read (Elt Ideal) (lin3_G V c) := by
  show (cfg3.win 3).cut (grid3.coords t) ((dat3 V c).after 3 t) = _
  rw [after3_3]
  funext j
  obtain ⟨-, -, -, -, -, -, e0, e1⟩ := lin3_idx t
  have hx : win3_3.xinj (grid3.coords t) j = ix2 (⟨(j 0).val, (j 0).isLt⟩ : Fin 5000) (⟨(j 1).val, (j 1).isLt⟩ : Fin 64) := by
    funext a
    match a with
    | ⟨0, _⟩ => rfl
    | ⟨1, _⟩ => rfl
  show out3_3 (F := Ideal) (iblk3 V c 0 t) (iblk3 V c 1 t) (iblk3 V c 2 t) (win3_3.xinj (grid3.coords t) j)
    = lin3_G V c (((cfg3.win 3).blk t).view.emb j)
  rw [hx]
  exact lin3_point V c t _ _ _ _
    (by show win3_3.index t (0 : Fin 2) * 5000 + 1 * (j 0).val = t.val * 5000 + (j 0).val; rw [e0]; omega)
    (by show win3_3.index t (1 : Fin 2) * 64 + 1 * (j 1).val = (j 1).val; rw [e1]; omega)

theorem lin3_mem_blk (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v21).slice (win3_3.rect t)).set ↔ _
  rw [View.set_slice_whole, Rect.mem_set_unit]
  exact Iff.rfl

theorem lin3_cover (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  refine ⟨t, lin3_flush t, ?_⟩
  rw [lin3_mem_blk]
  obtain ⟨-, -, -, -, -, -, e0, e1⟩ := lin3_idx t
  intro a
  match a with
  | ⟨0, _⟩ =>
    show win3_3.index t (0 : Fin 2) * 5000 ≤ (i 0).val ∧ (i 0).val < win3_3.index t (0 : Fin 2) * 5000 + 5000
    rw [e0, ht]; omega
  | ⟨1, _⟩ =>
    show win3_3.index t (1 : Fin 2) * 64 ≤ (i 1).val ∧ (i 1).val < win3_3.index t (1 : Fin 2) * 64 + 64
    rw [e1]; omega

theorem lin3_final (V : (c : Dev nD) → (b : Ref sig .tc) → Buf (Elt Ideal) ((c : Thread nD τ).loc b)) (c : Dev nD) (n : Fin 50000) (d : Fin 64) :
    (dat3 (F := Ideal) V c).arrAt 3 cfg3.N (ix2 n d)
      = Cert.Spec.lin (fun n k => V c main_v20 (ix2 n k)) (fun n => V c main_v10 (ix2 n 0)) (fun k d => V c main_arg3 (ix2 k d)) n d :=
  congrFun ((dat3 (F := Ideal) V c).arrAt_eq_of_cover 3 (lin3_G V c) (fun t _ => lin3_flushed V c t) lin3_cover) (ix2 n d)

end Cert.KernelIdeal.Val

end
-- ==== Proof.Val.GatherValue4.lean ====
/-
  What the one-hot gather of region 4 leaves in its output array, at the ideal instance.  The 12500 grid points run
  through 250 edge blocks of 2400 edges, and inside an edge block through 50 node blocks of 1000 nodes.  At the point
  of edge block ei and node block k the accumulator row of edge ei*2400 + e holds the indicator-weighted sum of the
  feature rows of the node blocks 0..k: zero before node block 0, and one more node block at each point.  After the
  last node block the sum runs over all 50000 nodes and picks the row the edge's source index names (the zero row when
  it names none); that is what the point writes back to block ei of the output, and the 250 blocks tile the output.
-/
import proofs.«411707_j25580825215441_1_alg».proof.Proof.KI.GatherBody4
import proofs.«411707_j25580825215441_1_alg».proof.Proof.Spec
import proofs.«411707_j25580825215441_1_alg».proof.Proof.SumLaws
import proofs.«411707_j25580825215441_1_alg».proof.Proof.Val.Payloads
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The node-feature row of node n, the zero row past the table's end. -/
def featN4 (c : Dev nD) (n : ℕ) (d : Fin 64) : EReal :=
  if h : n < 50000 then V c main_v21 (ix2 (⟨n, h⟩ : Fin 50000) d) else 0

/-- The source-index word of edge r, the zero word past the edge list's end. -/
def srcN4 (c : Dev nD) (r : ℕ) : BitVec 32 :=
  if h : r < 600000 then V c main_v15 (ix2 (⟨r, h⟩ : Fin 600000) (0 : Fin 1)) else 0

/-- Node block b's share of edge r's gathered row: the indicator-weighted sum over the block's 1000 nodes. -/
def part4 (c : Dev nD) (r : ℕ) (d : Fin 64) (b : ℕ) : EReal :=
  ∑ j : Fin 1000, (if srcN4 V c r = BitVec.ofNat 32 (b * 1000 + j.val) then (1 : EReal) else 0) * featN4 V c (b * 1000 + j.val) d

/-- The number of grid points, as a numeral. -/
theorem N4_eq : cfg4.N = 12500 := N_4

/-- The block index maps and the inner grid coordinate, decided once over the grid. -/
theorem idx_facts4 : ∀ t : Fin cfg4.N,
    win4_0.index t (0 : Fin 2) = t.val % 50 ∧ win4_0.index t (1 : Fin 2) = 0
    ∧ win4_1.index t (0 : Fin 2) = t.val / 50 ∧ win4_1.index t (1 : Fin 2) = 0
    ∧ win4_2.index t (0 : Fin 2) = t.val / 50 ∧ win4_2.index t (1 : Fin 2) = 0
    ∧ ((grid4.coords t) (1 : Fin 2)).val = t.val % 50 :=
  (by decide +kernel : ∀ t : Fin grid4.N, _)

/-! ## The input blocks, read at an index -/

/-- The node-feature block at point t is node block t % 50 of the feature table. -/
theorem feat_block4 (c : Dev nD) (t : Fin cfg4.N) (j : Fin 1000) (d : Fin 64) :
    (iblk4 V c 0 t : Vec Ideal S1000x64 .f32) (ix2 j d) = featN4 V c (t.val % 50 * 1000 + j.val) d := by
  obtain ⟨e0, e1, -, -, -, -, -⟩ := idx_facts4 t
  have hlt : t.val % 50 * 1000 + j.val < 50000 := by have := j.isLt; omega
  unfold featN4
  rw [dif_pos hlt]
  unfold iblk4
  show V c main_v21 (((cfg4.win 0).blk t).view.emb (ix2 j d)) = V c main_v21 (ix2 (⟨t.val % 50 * 1000 + j.val, hlt⟩ : Fin 50000) d)
  congr 1
  funext a
  apply Fin.ext
  match a with
  | ⟨0, _⟩ => show win4_0.index t (0 : Fin 2) * 1000 + 1 * j.val = t.val % 50 * 1000 + j.val; rw [e0]; omega
  | ⟨1, _⟩ => show win4_0.index t (1 : Fin 2) * 64 + 1 * d.val = d.val; rw [e1]; omega

/-- The source-index block at point t is edge block t / 50 of the source-index column. -/
theorem src_block4 (c : Dev nD) (t : Fin cfg4.N) (e : Fin 2400) :
    (iblk4 V c 1 t : Vec Ideal S2400x1 .i32) (ix2 e (0 : Fin 1)) = srcN4 V c (t.val / 50 * 2400 + e.val) := by
  obtain ⟨-, -, e2, e3, -, -, -⟩ := idx_facts4 t
  have ht : t.val < 12500 := N4_eq ▸ t.isLt
  have hlt : t.val / 50 * 2400 + e.val < 600000 := by have := e.isLt; omega
  unfold srcN4
  rw [dif_pos hlt]
  unfold iblk4
  show V c main_v15 (((cfg4.win 1).blk t).view.emb (ix2 e (0 : Fin 1))) = V c main_v15 (ix2 (⟨t.val / 50 * 2400 + e.val, hlt⟩ : Fin 600000) (0 : Fin 1))
  congr 1
  funext a
  apply Fin.ext
  match a with
  | ⟨0, _⟩ => show win4_1.index t (0 : Fin 2) * 2400 + 1 * e.val = t.val / 50 * 2400 + e.val; rw [e2]; omega
  | ⟨1, _⟩ => show win4_1.index t (1 : Fin 2) * 1 + 1 * 0 = 0; rw [e3]

/-! ## One point's step, and the accumulator as a partial sum -/

/-- The body's update at point t adds node block t % 50's share to every row of the accumulator. -/
theorem step_at4 (c : Dev nD) (t : Fin cfg4.N) (acc : Vec Ideal S2400x64 .f32) (e : Fin 2400) (d : Fin 64) :
    k4_pay2 (F := Ideal) (grid4.coords t) (iblk4 V c 1 t) (iblk4 V c 0 t) acc (ix2 e d)
      = acc (ix2 e d) + part4 V c (t.val / 50 * 2400 + e.val) d (t.val % 50) := by
  obtain ⟨-, -, -, -, -, -, e6⟩ := idx_facts4 t
  refine (k4_pay2_apply (grid4.coords t) (iblk4 V c 1 t) (iblk4 V c 0 t) acc e d).trans ?_
  congr 1
  unfold part4
  apply Finset.sum_congr rfl
  intro j _
  rw [src_block4 V c t e, feat_block4 V c t j d, e6]

/-- At the first node block of an edge block the accumulator restarts from zero. -/
theorem acc4_reset (c : Dev nD) (n : ℕ) (hn : n < cfg4.N) (h0 : n % 50 = 0) :
    acc4 V c n hn = k4_pay2 (grid4.coords ⟨n, hn⟩) (iblk4 V c 1 ⟨n, hn⟩) (iblk4 V c 0 ⟨n, hn⟩) (k4_pay1 (F := Ideal)) := by
  cases n with
  | zero => rw [acc4]
  | succ m => rw [acc4, if_pos h0]

/-- At every other node block it goes on from what the point before left. -/
theorem acc4_carry (c : Dev nD) (n : ℕ) (hn : n + 1 < cfg4.N) (h0 : ¬(n + 1) % 50 = 0) :
    acc4 V c (n + 1) hn = k4_pay2 (grid4.coords ⟨n + 1, hn⟩) (iblk4 V c 1 ⟨n + 1, hn⟩) (iblk4 V c 0 ⟨n + 1, hn⟩)
      (acc4 V c n (Nat.lt_of_succ_lt hn)) := by
  rw [acc4, if_neg h0]

/-- After node block k of edge block ei the accumulator row e holds the shares of node blocks 0..k. -/
theorem acc4_partial (c : Dev nD) (ei : ℕ) (e : Fin 2400) (d : Fin 64) :
    ∀ k : ℕ, k < 50 → ∀ (n : ℕ) (hn : n < cfg4.N), n = ei * 50 + k →
      acc4 V c n hn (ix2 e d) = ∑ b ∈ Finset.range (k + 1), part4 V c (ei * 2400 + e.val) d b := by
  intro k
  induction k with
  | zero =>
    intro _ n hn hnk
    have h0 : n % 50 = 0 := by omega
    have hq : n / 50 = ei := by omega
    rw [acc4_reset V c n hn h0, step_at4 V c ⟨n, hn⟩ _ e d, k4_pay1_apply, Finset.sum_range_one, zero_add]
    show part4 V c (n / 50 * 2400 + e.val) d (n % 50) = _
    rw [h0, hq]
  | succ k ih =>
    intro hk n hn hnk
    obtain ⟨m, rfl⟩ : ∃ m, n = m + 1 := ⟨ei * 50 + k, by omega⟩
    have h0 : ¬(m + 1) % 50 = 0 := by omega
    have hq : (m + 1) / 50 = ei := by omega
    have hr : (m + 1) % 50 = k + 1 := by omega
    rw [acc4_carry V c m hn h0, step_at4 V c ⟨m + 1, hn⟩ _ e d, ih (by omega) m (Nat.lt_of_succ_lt hn) (by omega),
      Finset.sum_range_succ _ (k + 1)]
    show _ + part4 V c ((m + 1) / 50 * 2400 + e.val) d ((m + 1) % 50) = _
    rw [hq, hr]

/-- The shares of all 50 node blocks add up to the gathered row. -/
theorem parts_eq_gat4 (c : Dev nD) (r : Fin 600000) (d : Fin 64) :
    ∑ b ∈ Finset.range 50, part4 V c r.val d b
      = Cert.Spec.gat (fun n d => V c main_v21 (ix2 n d)) (fun e => V c main_v15 (ix2 e 0)) r d := by
  rw [← Fin.sum_univ_eq_sum_range (fun b => part4 V c r.val d b) 50]
  have hsrc : srcN4 V c r.val = V c main_v15 (ix2 r (0 : Fin 1)) := by
    unfold srcN4; rw [dif_pos r.isLt]
  have hsum : ∀ b : Fin 50, part4 V c r.val d b.val
      = ∑ j : Fin 1000, (if V c main_v15 (ix2 r (0 : Fin 1)) = BitVec.ofNat 32 (b.val * 1000 + j.val) then (1 : EReal) else 0)
          * (fun n d => V c main_v21 (ix2 n d)) (⟨b.val * 1000 + j.val, by have := b.isLt; have := j.isLt; omega⟩ : Fin 50000) d := by
    intro b
    unfold part4
    apply Finset.sum_congr rfl
    intro j _
    have hlt : b.val * 1000 + j.val < 50000 := by have := b.isLt; have := j.isLt; omega
    rw [hsrc]
    unfold featN4
    rw [dif_pos hlt]
  rw [Finset.sum_congr rfl (fun b _ => hsum b)]
  exact Cert.Spec.gat_blocked (fun n d => V c main_v21 (ix2 n d)) (V c main_v15 (ix2 r (0 : Fin 1))) d

/-! ## From the blocks to the array -/

/-- The whole output array: every edge's gathered row. -/
abbrev G4 (c : Dev nD) : S600000x64.Idx → EReal :=
  fun i => Cert.Spec.gat (fun n d => V c main_v21 (ix2 n d)) (fun e => V c main_v15 (ix2 e 0)) (i 0) (i 1)

/-- What a writing point (the last node block of its edge block) writes back is its block of the gathered rows. -/
theorem flushed4_eq (c : Dev nD) (t : Fin cfg4.N) (hf : (cfg4.win 2).flush t = true) :
    (dat4 (F := Ideal) V c).flushed 2 t = ((cfg4.win 2).blk t).view.read (Elt Ideal) (G4 V c) := by
  have h49 : t.val % 50 = 49 := (flush4_2 t).mp hf
  have ht : t.val < 12500 := N4_eq ▸ t.isLt
  obtain ⟨-, -, -, -, e4, e5, -⟩ := idx_facts4 t
  show (cfg4.win 2).cut (grid4.coords t) ((dat4 (F := Ideal) V c).after 2 t) = _
  rw [after4_2]
  funext y
  obtain ⟨e, d, rfl⟩ : ∃ (e : Fin 2400) (d : Fin 64), y = ix2 e d := ⟨y 0, y 1, eq_ix2 y⟩
  have hlt : t.val / 50 * 2400 + e.val < 600000 := by have := e.isLt; omega
  have hemb : ((cfg4.win 2).blk t).view.emb (ix2 e d) = ix2 (⟨t.val / 50 * 2400 + e.val, hlt⟩ : Fin 600000) d := by
    funext a
    apply Fin.ext
    match a with
    | ⟨0, _⟩ => show win4_2.index t (0 : Fin 2) * 2400 + 1 * e.val = t.val / 50 * 2400 + e.val; rw [e4]; omega
    | ⟨1, _⟩ => show win4_2.index t (1 : Fin 2) * 64 + 1 * d.val = d.val; rw [e5]; omega
  show k4_pay3 (F := Ideal) (acc4 V c t.val t.isLt) (ix2 e d) = G4 V c (((cfg4.win 2).blk t).view.emb (ix2 e d))
  rw [hemb, k4_pay3_apply, acc4_partial V c (t.val / 50) e d 49 (by omega) t.val t.isLt (by omega)]
  exact parts_eq_gat4 V c ⟨t.val / 50 * 2400 + e.val, hlt⟩ d

/-- An index of the output array is in point t's block iff each coordinate is in the block's range on its axis. -/
theorem mem_blk4 (t : Fin cfg4.N) (i : S600000x64.Idx) :
    i ∈ ((cfg4.win 2).blk t).view.set ↔ ∀ a : Fin 2, win4_2.index t a * S2400x64.size a ≤ (i a).val ∧ (i a).val < win4_2.index t a * S2400x64.size a + S2400x64.size a := by
  show i ∈ ((View.whole main_v22).slice (win4_2.rect t)).set ↔ _
  rw [View.set_slice_whole, Rect.mem_set_unit]
  exact Iff.rfl

/-- Every index of the output array lies in the block of a writing point: row r in that of edge block r / 2400. -/
theorem cover4 (i : S600000x64.Idx) :
    ∃ t : Fin cfg4.N, (cfg4.win 2).flush t = true ∧ i ∈ ((cfg4.win 2).blk t).view.set := by
  have hi0 : (i 0).val < 600000 := (i 0).isLt
  have hi1 : (i 1).val < 64 := (i 1).isLt
  have hlt : (i 0).val / 2400 * 50 + 49 < cfg4.N := by rw [N4_eq]; omega
  obtain ⟨-, -, -, -, e4, e5, -⟩ := idx_facts4 ⟨(i 0).val / 2400 * 50 + 49, hlt⟩
  dsimp only at e4 e5
  refine ⟨⟨(i 0).val / 2400 * 50 + 49, hlt⟩, (flush4_2 _).mpr (by dsimp only; omega), ?_⟩
  rw [mem_blk4]
  intro a
  match a with
  | ⟨0, _⟩ =>
    show win4_2.index ⟨(i 0).val / 2400 * 50 + 49, hlt⟩ (0 : Fin 2) * 2400 ≤ (i 0).val
      ∧ (i 0).val < win4_2.index ⟨(i 0).val / 2400 * 50 + 49, hlt⟩ (0 : Fin 2) * 2400 + 2400
    rw [e4]; omega
  | ⟨1, _⟩ =>
    show win4_2.index ⟨(i 0).val / 2400 * 50 + 49, hlt⟩ (1 : Fin 2) * 64 ≤ (i 1).val
      ∧ (i 1).val < win4_2.index ⟨(i 0).val / 2400 * 50 + 49, hlt⟩ (1 : Fin 2) * 64 + 64
    rw [e5]; omega

/-- The output array after the region: every edge's gathered row. -/
theorem final4 (c : Dev nD) : (dat4 (F := Ideal) V c).arrAt 2 cfg4.N = G4 V c :=
  (dat4 (F := Ideal) V c).arrAt_eq_of_cover 2 (G4 V c) (fun t hf => flushed4_eq V c t hf) cover4

/-- Region 4's output array, read at an index, is the specification's gather of the feature table it was entered with. -/
theorem gat4_final (c : Dev nD) (e : Fin 600000) (d : Fin 64) :
    (dat4 (F := Ideal) V c).arrAt 2 cfg4.N (ix2 e d)
      = Cert.Spec.gat (fun n d => V c main_v21 (ix2 n d)) (fun e => V c main_v15 (ix2 e 0)) e d := by
  rw [final4 V c]

end Cert.KernelIdeal.Val

end
-- ==== Proof.Val.ScatterValue5.lean ====
import proofs.«411707_j25580825215441_1_alg».proof.Proof.KI.ScatterBody5
import proofs.«411707_j25580825215441_1_alg».proof.Proof.Spec
import proofs.«411707_j25580825215441_1_alg».proof.Proof.SumLaws
import proofs.«411707_j25580825215441_1_alg».proof.Proof.Val.Payloads
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.Pipeline (Dat)
open Idealize.ShloMosaic.TcCoe

variable (V : (c : Dev nD) → (b : Ref sig .tc) → Buf (Elt Ideal) ((c : Thread nD τ).loc b))

theorem blockIdx5 : ∀ t : Fin cfg5.N,
    (win5_0.index t (0 : Fin 2) = t.val % 250 ∧ win5_0.index t (1 : Fin 2) = 0)
    ∧ (win5_1.index t (0 : Fin 2) = t.val % 250 ∧ win5_1.index t (1 : Fin 2) = 0)
    ∧ (win5_2.index t (0 : Fin 2) = t.val / 250 ∧ win5_2.index t (1 : Fin 2) = 0)
    ∧ (win5_3.index t (0 : Fin 2) = 0 ∧ win5_3.index t (1 : Fin 2) = 0)
    ∧ (win5_4.index t (0 : Fin 2) = t.val / 250 ∧ win5_4.index t (1 : Fin 2) = 0)
    ∧ ((grid5.coords t) (0 : Fin 2)).val = t.val / 250 :=
  (by decide +kernel : ∀ t : Fin grid5.N, _)

theorem iblk5_0_apply (c : Dev nD) (t : Fin cfg5.N) (e : Fin 2400) (d : Fin 64) (k : Fin 600000)
    (hk : k.val = t.val % 250 * 2400 + e.val) :
    (iblk5 V c 0 t : Vec Ideal S2400x64 .bf16) (ix2 e d) = V c main_v22 (ix2 k d) := by
  obtain ⟨⟨e0, e1⟩, -⟩ := blockIdx5 t
  unfold iblk5
  rw [View.read_apply]
  show V c main_v22 _ = V c main_v22 _
  congr 1
  funext a
  apply Fin.ext
  match a with
  | ⟨0, _⟩ => show win5_0.index t (0 : Fin 2) * 2400 + 1 * e.val = k.val; rw [e0, hk]; omega
  | ⟨1, _⟩ => show win5_0.index t (1 : Fin 2) * 64 + 1 * d.val = d.val; rw [e1]; omega

theorem iblk5_1_apply (c : Dev nD) (t : Fin cfg5.N) (e : Fin 2400) (k : Fin 600000)
    (hk : k.val = t.val % 250 * 2400 + e.val) :
    (iblk5 V c 1 t : Vec Ideal S2400x1 .i32) (ix2 e 0) = V c main_v16 (ix2 k 0) := by
  obtain ⟨-, ⟨e0, e1⟩, -⟩ := blockIdx5 t
  unfold iblk5
  rw [View.read_apply]
  show V c main_v16 _ = V c main_v16 _
  congr 1
  funext a
  apply Fin.ext
  match a with
  | ⟨0, _⟩ => show win5_1.index t (0 : Fin 2) * 2400 + 1 * e.val = k.val; rw [e0, hk]; omega
  | ⟨1, _⟩ => show win5_1.index t (1 : Fin 2) * 1 + 1 * 0 = 0; rw [e1]

theorem iblk5_2_apply (c : Dev nD) (t : Fin cfg5.N) (n : Fin 1000) (k : Fin 50000)
    (hk : k.val = t.val / 250 * 1000 + n.val) :
    (iblk5 V c 2 t : Vec Ideal S1000x1 .f32) (ix2 n 0) = V c main_v14 (ix2 k 0) := by
  obtain ⟨-, -, ⟨e0, e1⟩, -⟩ := blockIdx5 t
  unfold iblk5
  rw [View.read_apply]
  show V c main_v14 _ = V c main_v14 _
  congr 1
  funext a
  apply Fin.ext
  match a with
  | ⟨0, _⟩ => show win5_2.index t (0 : Fin 2) * 1000 + 1 * n.val = k.val; rw [e0, hk]; omega
  | ⟨1, _⟩ => show win5_2.index t (1 : Fin 2) * 1 + 1 * 0 = 0; rw [e1]

theorem iblk5_3_apply (c : Dev nD) (t : Fin cfg5.N) (d : Fin 64) :
    (iblk5 V c 3 t : Vec Ideal S1x64 .f32) (ix2 0 d) = V c main_v23 (ix2 0 d) := by
  obtain ⟨-, -, -, ⟨e0, e1⟩, -⟩ := blockIdx5 t
  unfold iblk5
  rw [View.read_apply]
  show V c main_v23 _ = V c main_v23 _
  congr 1
  funext a
  apply Fin.ext
  match a with
  | ⟨0, _⟩ => show win5_3.index t (0 : Fin 2) * 1 + 1 * 0 = 0; rw [e0]
  | ⟨1, _⟩ => show win5_3.index t (1 : Fin 2) * 64 + 1 * d.val = d.val; rw [e1]; omega

theorem acc5_of_mod_zero (c : Dev nD) (t : ℕ) (ht : t < cfg5.N) (h0 : t % 250 = 0) :
    acc5 V c t ht = k5_pay2 (grid5.coords ⟨t, ht⟩) (iblk5 V c 1 ⟨t, ht⟩) (iblk5 V c 0 ⟨t, ht⟩) (k5_pay1 (F := Ideal)) := by
  cases t with
  | zero => rw [acc5]
  | succ m => rw [acc5, if_pos h0]

theorem acc5_of_mod_ne (c : Dev nD) (t : ℕ) (ht : t + 1 < cfg5.N) (h0 : ¬(t + 1) % 250 = 0) :
    acc5 V c (t + 1) ht = k5_pay2 (grid5.coords ⟨t + 1, ht⟩) (iblk5 V c 1 ⟨t + 1, ht⟩) (iblk5 V c 0 ⟨t + 1, ht⟩)
      (acc5 V c t (Nat.lt_of_succ_lt ht)) := by
  rw [acc5, if_neg h0]

def addend5 (c : Dev nD) (q : ℕ) (n : Fin 1000) (d : Fin 64) (b : ℕ) : EReal :=
  ∑ j : Fin 2400, if h : b * 2400 + j.val < 600000 then
    (if V c main_v16 (ix2 (⟨b * 2400 + j.val, h⟩ : Fin 600000) 0) = BitVec.ofNat 32 (q * 1000 + n.val) then (1 : EReal) else 0)
      * V c main_v22 (ix2 (⟨b * 2400 + j.val, h⟩ : Fin 600000) d)
  else 0

theorem pay5_point (c : Dev nD) (t : Fin cfg5.N) (q k : ℕ) (hk : k < 250) (ht : t.val = q * 250 + k)
    (v17 : Vec Ideal S1000x64 .f32) (n : Fin 1000) (d : Fin 64) :
    k5_pay2 (F := Ideal) (grid5.coords t) (iblk5 V c 1 t) (iblk5 V c 0 t) v17 (ix2 n d)
      = v17 (ix2 n d) + addend5 V c q n d k := by
  refine (k5_pay2_apply (grid5.coords t) (iblk5 V c 1 t) (iblk5 V c 0 t) v17 n d).trans ?_
  obtain ⟨-, -, -, -, -, e0⟩ := blockIdx5 t
  have hm : t.val % 250 = k := by omega
  have hq : t.val / 250 = q := by omega
  congr 1
  unfold addend5
  refine Finset.sum_congr rfl fun j _ => ?_
  have hj : j.val < 2400 := j.isLt
  have hlt : k * 2400 + j.val < 600000 := by omega
  rw [dif_pos hlt, iblk5_1_apply V c t j ⟨k * 2400 + j.val, hlt⟩ (by rw [hm]),
    iblk5_0_apply V c t j d ⟨k * 2400 + j.val, hlt⟩ (by rw [hm]), e0, hq]

theorem acc5_start (c : Dev nD) (q : ℕ) (ht : q * 250 < cfg5.N) (n : Fin 1000) (d : Fin 64) :
    acc5 V c (q * 250) ht (ix2 n d) = 0 + addend5 V c q n d 0 := by
  rw [acc5_of_mod_zero V c (q * 250) ht (by omega),
    pay5_point V c ⟨q * 250, ht⟩ q 0 (by norm_num) (by simp) (k5_pay1 (F := Ideal)) n d, k5_pay1_apply]

theorem acc5_step (c : Dev nD) (q k : ℕ) (hk : k + 1 < 250) (ht : q * 250 + (k + 1) < cfg5.N) (n : Fin 1000) (d : Fin 64) :
    acc5 V c (q * 250 + (k + 1)) ht (ix2 n d)
      = acc5 V c (q * 250 + k) (Nat.lt_of_succ_lt ht) (ix2 n d) + addend5 V c q n d (k + 1) := by
  show acc5 V c ((q * 250 + k) + 1) ht (ix2 n d) = _
  rw [acc5_of_mod_ne V c (q * 250 + k) ht (by omega),
    pay5_point V c ⟨q * 250 + k + 1, ht⟩ q (k + 1) hk rfl _ n d]

theorem acc5_row (c : Dev nD) (q : ℕ) (hq : q < 50) (ht : q * 250 + 249 < cfg5.N) (n : Fin 1000) (d : Fin 64) :
    acc5 V c (q * 250 + 249) ht (ix2 n d) = ∑ b : Fin 250, addend5 V c q n d b.val := by
  have hN : cfg5.N = 12500 := N_5
  have key := Cert.Spec.running_sum_fin 249
    (fun k => if h : k < 250 then acc5 V c (q * 250 + k) (by rw [hN]; omega) (ix2 n d) else 0)
    (fun b => addend5 V c q n d b)
    (by
      show (if h : 0 < 250 then acc5 V c (q * 250 + 0) _ (ix2 n d) else 0) = _
      rw [dif_pos (by norm_num)]
      exact acc5_start V c q _ n d)
    (by
      intro k hk
      show (if h : k + 1 < 250 then acc5 V c (q * 250 + (k + 1)) _ (ix2 n d) else 0)
        = (if h : k < 250 then acc5 V c (q * 250 + k) _ (ix2 n d) else 0) + _
      rw [dif_pos (by omega : k + 1 < 250), dif_pos (by omega : k < 250)]
      exact acc5_step V c q k (by omega) _ n d)
  have key' : (if h : 249 < 250 then acc5 V c (q * 250 + 249) (by rw [hN]; omega) (ix2 n d) else 0)
      = ∑ b : Fin 250, addend5 V c q n d b.val := key
  rw [dif_pos (by norm_num)] at key'
  exact key'

def out5 (c : Dev nD) : S50000x64.Idx → EReal := fun i =>
  Cert.Spec.sca (fun e d => V c main_v22 (ix2 e d)) (fun e => V c main_v16 (ix2 e 0)) (i 0) (i 1)
    * V c main_v14 (ix2 (i 0) 0) + V c main_v23 (ix2 0 (i 1))

theorem sum_addend5 (c : Dev nD) (q : ℕ) (n : Fin 1000) (d : Fin 64) (k : Fin 50000) (hk : k.val = q * 1000 + n.val) :
    (∑ b : Fin 250, addend5 V c q n d b.val)
      = Cert.Spec.sca (fun e d => V c main_v22 (ix2 e d)) (fun e => V c main_v16 (ix2 e 0)) k d := by
  rw [← Cert.Spec.sca_blocked]
  refine Finset.sum_congr rfl fun b _ => ?_
  unfold addend5
  refine Finset.sum_congr rfl fun j _ => ?_
  have hb : b.val < 250 := b.isLt
  have hj : j.val < 2400 := j.isLt
  rw [dif_pos (by omega : b.val * 2400 + j.val < 600000), hk]

theorem out_point5 (c : Dev nD) (t : Fin cfg5.N) (h249 : t.val % 250 = 249) (j : S1000x64.Idx) (i : S50000x64.Idx)
    (hi0 : (i 0).val = t.val / 250 * 1000 + (j 0).val) (hi1 : (i 1).val = (j 1).val) :
    k5_pay3 (F := Ideal) (acc5 V c t.val t.isLt) (iblk5 V c 2 t) (iblk5 V c 3 t) j = out5 V c i := by
  obtain ⟨n, d, rfl⟩ : ∃ a b, j = ix2 a b := ⟨j 0, j 1, eq_ix2 j⟩
  obtain ⟨k, d', rfl⟩ : ∃ a b, i = ix2 a b := ⟨i 0, i 1, eq_ix2 i⟩
  obtain rfl : d = d' := Fin.ext hi1.symm
  have hk : k.val = t.val / 250 * 1000 + n.val := hi0
  have hN : cfg5.N = 12500 := N_5
  have htl : t.val < 12500 := hN ▸ t.isLt
  have hq : t.val / 250 < 50 := by omega
  have hte : t.val = t.val / 250 * 250 + 249 := by omega
  have hacc : acc5 V c t.val t.isLt (ix2 n d) = ∑ b : Fin 250, addend5 V c (t.val / 250) n d b.val := by
    have h := acc5_row V c (t.val / 250) hq (by rw [← hte]; exact t.isLt) n d
    have same : ∀ (u : ℕ) (hu : u < cfg5.N), u = t.val → acc5 V c u hu = acc5 V c t.val t.isLt :=
      fun u hu e => by subst e; rfl
    rw [← same _ _ hte.symm]
    exact h
  refine (k5_pay3_apply (acc5 V c t.val t.isLt) (iblk5 V c 2 t) (iblk5 V c 3 t) n d).trans ?_
  rw [hacc, sum_addend5 V c (t.val / 250) n d k hk, iblk5_2_apply V c t n k hk, iblk5_3_apply V c t d]
  rfl

theorem flushed5_eq (c : Dev nD) (t : Fin cfg5.N) (hf : (cfg5.win 4).flush t = true) :
    (dat5 V c).flushed 4 t = ((cfg5.win 4).blk t).view.read (Elt Ideal) (out5 V c) := by
  have h249 : t.val % 250 = 249 := (flush5_4 t).mp hf
  obtain ⟨-, -, -, -, ⟨e0, e1⟩, -⟩ := blockIdx5 t
  show (cfg5.win 4).cut (grid5.coords t) ((dat5 V c).after 4 t) = _
  rw [after5_4]
  funext j
  show k5_pay3 (F := Ideal) (acc5 V c t.val t.isLt) (iblk5 V c 2 t) (iblk5 V c 3 t) j
    = out5 V c (((cfg5.win 4).blk t).view.emb j)
  refine out_point5 V c t h249 j _ ?_ ?_
  · show win5_4.index t (0 : Fin 2) * 1000 + 1 * (j 0).val = _
    rw [e0]; omega
  · show win5_4.index t (1 : Fin 2) * 64 + 1 * (j 1).val = _
    rw [e1]; omega

theorem mem_blk5 (t : Fin cfg5.N) (i : S50000x64.Idx) :
    i ∈ ((cfg5.win 4).blk t).view.set ↔ ∀ a : Fin 2, win5_4.index t a * S1000x64.size a ≤ (i a).val ∧ (i a).val < win5_4.index t a * S1000x64.size a + S1000x64.size a := by
  show i ∈ ((View.whole main_v24).slice (win5_4.rect t)).set ↔ _
  rw [View.set_slice_whole, Rect.mem_set_unit]
  exact Iff.rfl

theorem cover5 (i : S50000x64.Idx) : ∃ t : Fin cfg5.N, (cfg5.win 4).flush t = true ∧ i ∈ ((cfg5.win 4).blk t).view.set := by
  have hN : cfg5.N = 12500 := N_5
  have hi0 : (i 0).val < 50000 := idx2_lt0 i
  have hi1 : (i 1).val < 64 := idx2_lt1 i
  have htN : (i 0).val / 1000 * 250 + 249 < cfg5.N := by rw [hN]; omega
  refine ⟨⟨(i 0).val / 1000 * 250 + 249, htN⟩, (flush5_4 _).mpr (by show ((i 0).val / 1000 * 250 + 249) % 250 = 249; omega), ?_⟩
  obtain ⟨-, -, -, -, ⟨e0, e1⟩, -⟩ := blockIdx5 ⟨(i 0).val / 1000 * 250 + 249, htN⟩
  have e0' : win5_4.index ⟨(i 0).val / 1000 * 250 + 249, htN⟩ (0 : Fin 2) = (i 0).val / 1000 := by
    rw [e0]; show ((i 0).val / 1000 * 250 + 249) / 250 = _; omega
  rw [mem_blk5]
  intro a
  match a with
  | ⟨0, _⟩ =>
    show win5_4.index _ (0 : Fin 2) * 1000 ≤ (i 0).val ∧ (i 0).val < win5_4.index _ (0 : Fin 2) * 1000 + 1000
    rw [e0']; omega
  | ⟨1, _⟩ =>
    show win5_4.index _ (1 : Fin 2) * 64 ≤ (i 1).val ∧ (i 1).val < win5_4.index _ (1 : Fin 2) * 64 + 64
    rw [e1]; omega

theorem final5 (c : Dev nD) : (dat5 V c).arrAt 4 cfg5.N = out5 V c :=
  (dat5 V c).arrAt_eq_of_cover 4 (out5 V c) (flushed5_eq V c) cover5

theorem sca5_final (c : Dev nD) (n : Fin 50000) (d : Fin 64) :
    ((dat5 (F := Ideal) V c).arrAt 4 cfg5.N (ix2 n d) : EReal)
      = Cert.Spec.sca (fun e d => V c main_v22 (ix2 e d)) (fun e => V c main_v16 (ix2 e 0)) n d * V c main_v14 (ix2 n 0) + V c main_v23 (ix2 0 d) :=
  congrFun (final5 V c) (ix2 n d)

end Cert.KernelIdeal.Val

end
-- ==== Proof.Val.SideBuffers.lean ====
import proofs.«411707_j25580825215441_1_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal

noncomputable section

namespace Cert.KernelIdeal.Val

open Cert.KernelIdeal Cert.KernelIdeal.Gen Idealize.ShloMosaic Idealize.ShloMosaic.ValueIdx
open Idealize.ShloMosaic.TcCoe
open Idealize.ShloMosaic.StableHlo (after_cons after_nil nullary_result unary_result binary_result ternary_result
  quaternary_result reshape_result binaryIndexed_result nary4_result nary_result unaryIndexed_result nullary_result_ne
  unary_result_ne binary_result_ne ternary_result_ne quaternary_result_ne reshape_result_ne binaryIndexed_result_ne
  nary_result_ne unaryIndexed_result_ne)

variable (m : (ℓ : Loc nD τ sig) → Buf (Elt Ideal) ℓ)

theorem V5_main_arg0 (c : Dev nD) : V5 m c main_arg0 = m ((c : Thread nD τ).loc main_arg0) :=
  (V5_of m c main_arg0 (by decide)).trans <| (V4_of m c main_arg0 (by decide)).trans <|
    (V3_of m c main_arg0 (by decide)).trans <| (V2_of m c main_arg0 (by decide)).trans <|
      (V1_of m c main_arg0 (by decide)).trans rfl

theorem V5_main_arg1 (c : Dev nD) : V5 m c main_arg1 = m ((c : Thread nD τ).loc main_arg1) :=
  (V5_of m c main_arg1 (by decide)).trans <| (V4_of m c main_arg1 (by decide)).trans <|
    (V3_of m c main_arg1 (by decide)).trans <| (V2_of m c main_arg1 (by decide)).trans <|
      (V1_of m c main_arg1 (by decide)).trans rfl

theorem V5_main_arg2 (c : Dev nD) : V5 m c main_arg2 = m ((c : Thread nD τ).loc main_arg2) :=
  (V5_of m c main_arg2 (by decide)).trans <| (V4_of m c main_arg2 (by decide)).trans <|
    (V3_of m c main_arg2 (by decide)).trans <| (V2_of m c main_arg2 (by decide)).trans <|
      (V1_of m c main_arg2 (by decide)).trans rfl

theorem V5_main_arg3 (c : Dev nD) : V5 m c main_arg3 = m ((c : Thread nD τ).loc main_arg3) :=
  (V5_of m c main_arg3 (by decide)).trans <| (V4_of m c main_arg3 (by decide)).trans <|
    (V3_of m c main_arg3 (by decide)).trans <| (V2_of m c main_arg3 (by decide)).trans <|
      (V1_of m c main_arg3 (by decide)).trans rfl

theorem V5_main_arg4 (c : Dev nD) : V5 m c main_arg4 = m ((c : Thread nD τ).loc main_arg4) :=
  (V5_of m c main_arg4 (by decide)).trans <| (V4_of m c main_arg4 (by decide)).trans <|
    (V3_of m c main_arg4 (by decide)).trans <| (V2_of m c main_arg4 (by decide)).trans <|
      (V1_of m c main_arg4 (by decide)).trans rfl

theorem shapeCast_col_apply {n : ℕ} {α : Type} (x : (⟨1, ![n]⟩ : Shape).Idx → α)
    (h : (⟨1, ![n]⟩ : Shape).ShapeCasts ⟨2, ![n, 1]⟩) (e : Fin n) :
    shapeCast (⟨2, ![n, 1]⟩ : Shape) x h (ix2 e 0) = x (ix1 e) := by
  refine shapeCast_apply x h (ix2 e 0) (ix1 e) ?_
  rw [Shape.rowMajor_val_two, Shape.rowMajor_val_one]
  show e.val = e.val * 1 + 0
  omega

theorem V5_esrc (c : Dev nD) (e : Fin 600000) :
    (V5 m c main_v15 : S600000x1.Idx → BitVec 32) (ix2 e 0) = (m ((c : Thread nD τ).loc main_arg5) : S600000.Idx → BitVec 32) (ix1 e) := by
  have h : (V5 m c main_v15 : S600000x1.Idx → BitVec 32)
      = shapeCast S600000x1 (V4 m c main_arg5 : S600000.Idx → BitVec 32) shapeCasts_S600000_S600000x1 := by
    show StableHlo.after hostOps0_4 (V4 m c) (Proc.devRef .tc main_v15) = _
    after_results
    rfl
  rw [h, shapeCast_col_apply]
  exact congrFun ((V4_of m c main_arg5 (by decide)).trans <| (V3_of m c main_arg5 (by decide)).trans <|
    (V2_of m c main_arg5 (by decide)).trans <| (V1_of m c main_arg5 (by decide)).trans rfl) _

theorem V5_edst (c : Dev nD) (e : Fin 600000) :
    (V5 m c main_v16 : S600000x1.Idx → BitVec 32) (ix2 e 0) = (m ((c : Thread nD τ).loc main_arg6) : S600000.Idx → BitVec 32) (ix1 e) := by
  have h : (V5 m c main_v16 : S600000x1.Idx → BitVec 32)
      = shapeCast S600000x1 (V4 m c main_arg6 : S600000.Idx → BitVec 32) shapeCasts_S600000_S600000x1 := by
    show StableHlo.after hostOps0_4 (V4 m c) (Proc.devRef .tc main_v16) = _
    after_results
    rfl
  rw [h, shapeCast_col_apply]
  exact congrFun ((V4_of m c main_arg6 (by decide)).trans <| (V3_of m c main_arg6 (by decide)).trans <|
    (V2_of m c main_arg6 (by decide)).trans <| (V1_of m c main_arg6 (by decide)).trans rfl) _

theorem shapeCast_row_apply {n : ℕ} {α : Type} (x : (⟨1, ![n]⟩ : Shape).Idx → α)
    (h : (⟨1, ![n]⟩ : Shape).ShapeCasts ⟨2, ![1, n]⟩) (d : Fin n) :
    shapeCast (⟨2, ![1, n]⟩ : Shape) x h (ix2 0 d) = x (ix1 d) := by
  refine shapeCast_apply x h (ix2 0 d) (ix1 d) ?_
  rw [Shape.rowMajor_val_two, Shape.rowMajor_val_one]
  show d.val = 0 * n + d.val
  omega

theorem bias1_apply (W : Valuation τ sig (Elt Ideal)) (d : Fin 128) :
    (StableHlo.after hostOps2 W main_v19 : S1x128.Idx → EReal) (ix2 0 d) = (W main_arg2 : S128.Idx → EReal) (ix1 d) := by
  have h : (StableHlo.after hostOps2 W (Proc.devRef .tc main_v19) : S1x128.Idx → EReal)
      = shapeCast S1x128 (W main_arg2 : S128.Idx → EReal) shapeCasts_S128_S1x128 := by
    after_results
    rfl
  rw [h, shapeCast_row_apply]

theorem bias2_apply (W : Valuation τ sig (Elt Ideal)) (d : Fin 64) :
    (StableHlo.after hostOps5 W main_v23 : S1x64.Idx → EReal) (ix2 0 d) = (W main_arg4 : S64.Idx → EReal) (ix1 d) := by
  have h : (StableHlo.after hostOps5 W (Proc.devRef .tc main_v23) : S1x64.Idx → EReal)
      = shapeCast S1x64 (W main_arg4 : S64.Idx → EReal) shapeCasts_S64_S1x64 := by
    after_results
    rfl
  rw [h, shapeCast_row_apply]

theorem after_hostOps2_of (W : Valuation τ sig (Elt Ideal)) (r : Ref sig .tc) (h : r ≠ main_v19) :
    StableHlo.after hostOps2 W r = W r :=
  StableHlo.after_of_writes_sub hostOps2 W hostOps2_writes (List.mem_singleton.not.mpr h)

theorem after_hostOps5_of (W : Valuation τ sig (Elt Ideal)) (r : Ref sig .tc) (h : r ≠ main_v23) :
    StableHlo.after hostOps5 W r = W r :=
  StableHlo.after_of_writes_sub hostOps5 W hostOps5_writes (List.mem_singleton.not.mpr h)

def normK (idx : Vec Ideal S600000 .i32) : S50000.Idx → EReal :=
  Host.powf
    (maximumf
      (broadcastInDim S50000 ![] bcast_S_S50000 (id (constant (F := Ideal) S_ .f32 0x3F800000#32)))
      (Host.scatterAdd scatter_S50000_S600000x1_S600000_n_0_0_1
        (broadcastInDim S50000 ![] bcast_S_S50000 (constant (F := Ideal) S_ .f32 0x00000000#32))
        (broadcastInDim S600000x1 ![0] bcast_S600000_S600000x1_0 idx)
        (broadcastInDim S600000 ![] bcast_S_S600000 (constant (F := Ideal) S_ .f32 0x3F800000#32))))
    (broadcastInDim S50000 ![] bcast_S_S50000 (constant (F := Ideal) S_ .f32 0xBF000000#32))

theorem V5_norm_src (c : Dev nD) (n : Fin 50000) :
    (V5 m c main_v10 : S50000x1.Idx → EReal) (ix2 n 0) = normK (m ((c : Thread nD τ).loc main_arg5)) (ix1 n) := by
  have h : (V5 m c main_v10 : S50000x1.Idx → EReal)
      = shapeCast S50000x1 (normK (m ((c : Thread nD τ).loc main_arg5))) shapeCasts_S50000_S50000x1 := by
    show StableHlo.after hostOps0_4 (V4 m c) (Proc.devRef .tc main_v10) = _
    after_results
    rfl
  rw [h, shapeCast_col_apply]

theorem V5_norm_dst (c : Dev nD) (n : Fin 50000) :
    (V5 m c main_v14 : S50000x1.Idx → EReal) (ix2 n 0) = normK (m ((c : Thread nD τ).loc main_arg6)) (ix1 n) := by
  have h : (V5 m c main_v14 : S50000x1.Idx → EReal)
      = shapeCast S50000x1 (normK (m ((c : Thread nD τ).loc main_arg6))) shapeCasts_S50000_S50000x1 := by
    show StableHlo.after hostOps0_4 (V4 m c) (Proc.devRef .tc main_v14) = _
    after_results
    rfl
  rw [h, shapeCast_col_apply]

end Cert.KernelIdeal.Val

end
-- ==== Proof.Val.KernelValue.lean ====
import proofs.«411707_j25580825215441_1_alg».proof.Proof.KI.Run
import proofs.«411707_j25580825215441_1_alg».proof.Proof.Val.LinValue0
import proofs.«411707_j25580825215441_1_alg».proof.Proof.Val.GatherValue1
import proofs.«411707_j25580825215441_1_alg».proof.Proof.Val.ScatterValue2
import proofs.«411707_j25580825215441_1_alg».proof.Proof.Val.LinValue3
import proofs.«411707_j25580825215441_1_alg».proof.Proof.Val.GatherValue4
import proofs.«411707_j25580825215441_1_alg».proof.Proof.Val.ScatterValue5
import proofs.«411707_j25580825215441_1_alg».proof.Proof.Val.SideBuffers

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

theorem X6_of (c : Dev nD) (r : Ref sig .tc) (h : r ≠ main_v17) : X6 m c r = V5 m c r := by
  unfold X6; exact Function.update_of_ne (StableHlo.devRef_ne_of_ne h) ..
theorem X7_of (c : Dev nD) (r : Ref sig .tc) (h : r ≠ main_v18) : X7 m c r = X6 m c r := by
  unfold X7; exact Function.update_of_ne (StableHlo.devRef_ne_of_ne h) ..
theorem X8_of (c : Dev nD) (r : Ref sig .tc) (h : r ≠ main_v19) : X8 m c r = X7 m c r :=
  after_hostOps2_of _ r h
theorem X9_of (c : Dev nD) (r : Ref sig .tc) (h : r ≠ main_v20) : X9 m c r = X8 m c r := by
  unfold X9; exact Function.update_of_ne (StableHlo.devRef_ne_of_ne h) ..
theorem X10_of (c : Dev nD) (r : Ref sig .tc) (h : r ≠ main_v21) : X10 m c r = X9 m c r := by
  unfold X10; exact Function.update_of_ne (StableHlo.devRef_ne_of_ne h) ..
theorem X11_of (c : Dev nD) (r : Ref sig .tc) (h : r ≠ main_v22) : X11 m c r = X10 m c r := by
  unfold X11; exact Function.update_of_ne (StableHlo.devRef_ne_of_ne h) ..
theorem X12_of (c : Dev nD) (r : Ref sig .tc) (h : r ≠ main_v23) : X12 m c r = X11 m c r :=
  after_hostOps5_of _ r h

theorem X6_out (c : Dev nD) : X6 m c main_v17 = o6 m c := by unfold X6; exact Function.update_self ..
theorem X7_out (c : Dev nD) : X7 m c main_v18 = o7 m c := by unfold X7; exact Function.update_self ..
theorem X9_out (c : Dev nD) : X9 m c main_v20 = o9 m c := by unfold X9; exact Function.update_self ..
theorem X10_out (c : Dev nD) : X10 m c main_v21 = o10 m c := by unfold X10; exact Function.update_self ..
theorem X11_out (c : Dev nD) : X11 m c main_v22 = o11 m c := by unfold X11; exact Function.update_self ..

abbrev aX (c : Dev nD) : Fin 50000 → Fin 128 → EReal := fun n k => m ((c : Thread nD τ).loc main_arg0) (ix2 n k)
abbrev aW1 (c : Dev nD) : Fin 128 → Fin 128 → EReal := fun k d => m ((c : Thread nD τ).loc main_arg1) (ix2 k d)
abbrev aB1 (c : Dev nD) : Fin 128 → EReal := fun d => m ((c : Thread nD τ).loc main_arg2) (ix1 d)
abbrev aW2 (c : Dev nD) : Fin 128 → Fin 64 → EReal := fun k d => m ((c : Thread nD τ).loc main_arg3) (ix2 k d)
abbrev aB2 (c : Dev nD) : Fin 64 → EReal := fun d => m ((c : Thread nD τ).loc main_arg4) (ix1 d)
abbrev aEs (c : Dev nD) : Fin 600000 → BitVec 32 := fun e => m ((c : Thread nD τ).loc main_arg5) (ix1 e)
abbrev aEd (c : Dev nD) : Fin 600000 → BitVec 32 := fun e => m ((c : Thread nD τ).loc main_arg6) (ix1 e)

abbrev aNs (c : Dev nD) : Fin 50000 → EReal := fun n => normK (m ((c : Thread nD τ).loc main_arg5)) (ix1 n)
abbrev aNd (c : Dev nD) : Fin 50000 → EReal := fun n => normK (m ((c : Thread nD τ).loc main_arg6)) (ix1 n)

theorem o6_apply (c : Dev nD) (n : Fin 50000) (d : Fin 128) :
    o6 m c (ix2 n d) = Cert.Spec.lin (aX m c) (aNs m c) (aW1 m c) n d := by
  unfold o6
  rw [lin0_final]
  have h1 : (fun n k => tcOf (V5 m) c main_arg0 (ix2 n k)) = aX m c := by
    funext n k; show V5 m c main_arg0 (ix2 n k) = _; rw [V5_main_arg0]
  have h2 : (fun n => tcOf (V5 m) c main_v10 (ix2 n 0)) = aNs m c := by
    funext n; show V5 m c main_v10 (ix2 n 0) = _; rw [V5_norm_src]
  have h3 : (fun k d => tcOf (V5 m) c main_arg1 (ix2 k d)) = aW1 m c := by
    funext k d; show V5 m c main_arg1 (ix2 k d) = _; rw [V5_main_arg1]
  rw [h1, h2, h3]

theorem o7_apply (c : Dev nD) (e : Fin 600000) (d : Fin 128) :
    o7 m c (ix2 e d) = Cert.Spec.gat (Cert.Spec.lin (aX m c) (aNs m c) (aW1 m c)) (aEs m c) e d := by
  unfold o7
  rw [gat1_final]
  have h1 : (fun n d => tcOf (X6 m) c main_v17 (ix2 n d)) = Cert.Spec.lin (aX m c) (aNs m c) (aW1 m c) := by
    funext n d; show X6 m c main_v17 (ix2 n d) = _; rw [X6_out, o6_apply]
  have h2 : (fun e => tcOf (X6 m) c main_v15 (ix2 e 0)) = aEs m c := by
    funext e; show X6 m c main_v15 (ix2 e 0) = _; rw [X6_of m c main_v15 (by decide), V5_esrc]
  rw [h1, h2]

theorem o9_apply (c : Dev nD) (n : Fin 50000) (d : Fin 128) :
    o9 m c (ix2 n d) = Cert.Spec.hid (aX m c) (aNs m c) (aNd m c) (aW1 m c) (aB1 m c) (aEs m c) (aEd m c) n d := by
  unfold o9
  rw [sca2_final]
  have h1 : (fun e d => tcOf (X8 m) c main_v18 (ix2 e d)) = Cert.Spec.gat (Cert.Spec.lin (aX m c) (aNs m c) (aW1 m c)) (aEs m c) := by
    funext e d; show X8 m c main_v18 (ix2 e d) = _; rw [X8_of m c main_v18 (by decide), X7_out, o7_apply]
  have h2 : (fun e => tcOf (X8 m) c main_v16 (ix2 e 0)) = aEd m c := by
    funext e; show X8 m c main_v16 (ix2 e 0) = _
    rw [X8_of m c main_v16 (by decide), X7_of m c main_v16 (by decide), X6_of m c main_v16 (by decide), V5_edst]
  have h3 : tcOf (X8 m) c main_v14 (ix2 n 0) = aNd m c n := by
    show X8 m c main_v14 (ix2 n 0) = _
    rw [X8_of m c main_v14 (by decide), X7_of m c main_v14 (by decide), X6_of m c main_v14 (by decide), V5_norm_dst]
  have h4 : tcOf (X8 m) c main_v19 (ix2 0 d) = aB1 m c d := by
    show StableHlo.after hostOps2 (X7 m c) main_v19 (ix2 0 d) = _
    rw [bias1_apply, X7_of m c main_arg2 (by decide), X6_of m c main_arg2 (by decide), V5_main_arg2]
  rw [h1, h2, h3, h4]
  rfl

theorem o10_apply (c : Dev nD) (n : Fin 50000) (d : Fin 64) :
    o10 m c (ix2 n d) = Cert.Spec.lin (Cert.Spec.hid (aX m c) (aNs m c) (aNd m c) (aW1 m c) (aB1 m c) (aEs m c) (aEd m c)) (aNs m c) (aW2 m c) n d := by
  unfold o10
  rw [lin3_final]
  have h1 : (fun n k => tcOf (X9 m) c main_v20 (ix2 n k))
      = Cert.Spec.hid (aX m c) (aNs m c) (aNd m c) (aW1 m c) (aB1 m c) (aEs m c) (aEd m c) := by
    funext n k; show X9 m c main_v20 (ix2 n k) = _; rw [X9_out, o9_apply]
  have h2 : (fun n => tcOf (X9 m) c main_v10 (ix2 n 0)) = aNs m c := by
    funext n; show X9 m c main_v10 (ix2 n 0) = _
    rw [X9_of m c main_v10 (by decide), X8_of m c main_v10 (by decide), X7_of m c main_v10 (by decide),
      X6_of m c main_v10 (by decide), V5_norm_src]
  have h3 : (fun k d => tcOf (X9 m) c main_arg3 (ix2 k d)) = aW2 m c := by
    funext k d; show X9 m c main_arg3 (ix2 k d) = _
    rw [X9_of m c main_arg3 (by decide), X8_of m c main_arg3 (by decide), X7_of m c main_arg3 (by decide),
      X6_of m c main_arg3 (by decide), V5_main_arg3]
  rw [h1, h2, h3]

theorem o11_apply (c : Dev nD) (e : Fin 600000) (d : Fin 64) :
    o11 m c (ix2 e d) = Cert.Spec.gat (Cert.Spec.lin (Cert.Spec.hid (aX m c) (aNs m c) (aNd m c) (aW1 m c) (aB1 m c) (aEs m c) (aEd m c)) (aNs m c) (aW2 m c)) (aEs m c) e d := by
  unfold o11
  rw [gat4_final]
  have h1 : (fun n d => tcOf (X10 m) c main_v21 (ix2 n d)) = Cert.Spec.lin (Cert.Spec.hid (aX m c) (aNs m c) (aNd m c) (aW1 m c) (aB1 m c) (aEs m c) (aEd m c)) (aNs m c) (aW2 m c) := by
    funext n d; show X10 m c main_v21 (ix2 n d) = _; rw [X10_out, o10_apply]
  have h2 : (fun e => tcOf (X10 m) c main_v15 (ix2 e 0)) = aEs m c := by
    funext e; show X10 m c main_v15 (ix2 e 0) = _
    rw [X10_of m c main_v15 (by decide), X9_of m c main_v15 (by decide), X8_of m c main_v15 (by decide), X7_of m c main_v15 (by decide), X6_of m c main_v15 (by decide), V5_esrc]
  rw [h1, h2]

theorem o13_apply (c : Dev nD) (n : Fin 50000) (d : Fin 64) :
    o13 m c (ix2 n d) = Cert.Spec.out (aX m c) (aNs m c) (aNd m c) (aW1 m c) (aB1 m c) (aW2 m c) (aB2 m c) (aEs m c) (aEd m c) n d := by
  unfold o13
  rw [sca5_final]
  have h1 : (fun e d => tcOf (X12 m) c main_v22 (ix2 e d)) = Cert.Spec.gat (Cert.Spec.lin (Cert.Spec.hid (aX m c) (aNs m c) (aNd m c) (aW1 m c) (aB1 m c) (aEs m c) (aEd m c)) (aNs m c) (aW2 m c)) (aEs m c) := by
    funext e d; show X12 m c main_v22 (ix2 e d) = _; rw [X12_of m c main_v22 (by decide), X11_out, o11_apply]
  have h2 : (fun e => tcOf (X12 m) c main_v16 (ix2 e 0)) = aEd m c := by
    funext e; show X12 m c main_v16 (ix2 e 0) = _
    rw [X12_of m c main_v16 (by decide), X11_of m c main_v16 (by decide), X10_of m c main_v16 (by decide), X9_of m c main_v16 (by decide),
      X8_of m c main_v16 (by decide), X7_of m c main_v16 (by decide), X6_of m c main_v16 (by decide), V5_edst]
  have h3 : tcOf (X12 m) c main_v14 (ix2 n 0) = aNd m c n := by
    show X12 m c main_v14 (ix2 n 0) = _
    rw [X12_of m c main_v14 (by decide), X11_of m c main_v14 (by decide), X10_of m c main_v14 (by decide), X9_of m c main_v14 (by decide),
      X8_of m c main_v14 (by decide), X7_of m c main_v14 (by decide), X6_of m c main_v14 (by decide), V5_norm_dst]
  have h4 : tcOf (X12 m) c main_v23 (ix2 0 d) = aB2 m c d := by
    show StableHlo.after hostOps5 (X11 m c) main_v23 (ix2 0 d) = _
    rw [bias2_apply, X11_of m c main_arg4 (by decide), X10_of m c main_arg4 (by decide), X9_of m c main_arg4 (by decide),
      X8_of m c main_arg4 (by decide), X7_of m c main_arg4 (by decide), X6_of m c main_arg4 (by decide), V5_main_arg4]
  rw [h1, h2, h3, h4]
  rfl

end Cert.KernelIdeal.Val

end
-- ==== Proof.Ref.RefValue.lean ====
import proofs.«411707_j25580825215441_1_alg».proof.Proof.Gen.ReferenceIdeal.Run
import proofs.«411707_j25580825215441_1_alg».proof.Proof.Gen.ReferenceIdeal.Read
import proofs.«411707_j25580825215441_1_alg».proof.Proof.Spec

noncomputable section

open scoped BigOperators

namespace Cert.ReferenceIdeal.RefValue

open Idealize.ShloMosaic Idealize.ShloMosaic.ValueIdx Cert.ReferenceIdeal Cert.ReferenceIdeal.Gen Cert.ReferenceIdeal.Read

abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

theorem axis1_not_mem {r : Nat} (a b : Fin r) (h : a.val ≠ b.val) : a ∉ [b] :=
  fun hm => h (congrArg Fin.val (List.mem_singleton.mp hm))

section RowGather
variable {N E D w : Nat}
  (wf : GatherDims.WF ⟨2, ![N, D]⟩ ⟨2, ![E, 1]⟩ ⟨2, ![E, D]⟩ [1] [0] [] [0] [] 1 ![1, D])

theorem rowGather_axis0 (hN : 0 < N) (idx : IVec ⟨2, ![E, 1]⟩ w) (e : Fin E) (d : Fin D) :
    (rowGather N E D wf).start (ix2 e d) idx 0 + (rowGather N E D wf).batchCoord (ix2 e d) 0
      + (rowGather N E D wf).offCoord (ix2 e d) 0 = min (idx (ix2 e 0)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E D wf).startIndexMap from List.mem_singleton.mpr rfl)]
  have hsi : (rowGather N E D wf).siIdx (ix2 e d) ⟨List.idxOf (0 : Fin 2) (rowGather N E D wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem rowGather_axis1 (idx : IVec ⟨2, ![E, 1]⟩ w) (e : Fin E) (d : Fin D) :
    (rowGather N E D wf).start (ix2 e d) idx 1 + (rowGather N E D wf).batchCoord (ix2 e d) 1
      + (rowGather N E D wf).offCoord (ix2 e d) 1 = d.val := by
  rw [GatherDims.batchCoord_eq_zero _ _ _ List.not_mem_nil]
  unfold GatherDims.start
  rw [dif_neg (show ¬ (1 : Fin 2) ∈ (rowGather N E D wf).startIndexMap from axis1_not_mem _ _ Nat.one_ne_zero)]
  unfold GatherDims.offCoord
  rw [dif_pos (show (1 : Fin 2) ∈ (rowGather N E D wf).sKept from
    ((rowGather N E D wf).mem_sKept 1).mpr ⟨axis1_not_mem _ _ Nat.one_ne_zero, List.not_mem_nil⟩)]
  refine (Nat.zero_add _).trans ?_
  rfl

theorem rowGather_apply {α : Type} (hN : 0 < N) (x : (⟨2, ![N, D]⟩ : Shape).Idx → α) (idx : IVec ⟨2, ![E, 1]⟩ w)
    (e : Fin E) (d : Fin D) :
    Host.gather (rowGather N E D wf) x idx (ix2 e d)
      = x (ix2 ⟨min (idx (ix2 e 0)).toInt.toNat (N - 1), by omega⟩ d) := by
  unfold Host.gather
  congr 1
  funext a
  refine Fin.ext ?_
  match a with
  | ⟨0, _⟩ => exact rowGather_axis0 wf hN idx e d
  | ⟨1, _⟩ => exact rowGather_axis1 wf idx e d

end RowGather

abbrev rowScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N E D w : Nat}
  (wf : ScatterDims.WF ⟨2, ![N, D]⟩ ⟨2, ![E, 1]⟩ ⟨2, ![E, D]⟩ [1] [0] [0] 1)

theorem rowScatter_start0 (idx : IVec ⟨2, ![E, 1]⟩ w) (e : Fin E) (d : Fin D) :
    (rowScatter N E D wf).start (ix2 e d) idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e d) ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rowScatter_start1 (idx : IVec ⟨2, ![E, 1]⟩ w) (e : Fin E) (d : Fin D) :
    (rowScatter N E D wf).start (ix2 e d) idx 1 = 0 := by
  unfold ScatterDims.start
  rw [dif_neg (show ¬ (1 : Fin 2) ∈ (rowScatter N E D wf).scatterDimsToOperandDims from axis1_not_mem _ _ Nat.one_ne_zero)]

theorem rowScatter_window0 (e : Fin E) (d : Fin D) : (rowScatter N E D wf).window (ix2 e d) 0 = 0 := by
  unfold ScatterDims.window
  rw [dif_neg (show ¬ (0 : Fin 2) ∈ (rowScatter N E D wf).sKept from
    fun h => of_decide_eq_true (List.mem_filter.mp h).2 (List.mem_singleton.mpr rfl))]

theorem rowScatter_window1 (e : Fin E) (d : Fin D) : (rowScatter N E D wf).window (ix2 e d) 1 = d.val := by
  unfold ScatterDims.window
  rw [dif_pos (show (1 : Fin 2) ∈ (rowScatter N E D wf).sKept from
    List.mem_filter.mpr ⟨List.mem_finRange _, decide_eq_true (axis1_not_mem _ _ Nat.one_ne_zero)⟩)]
  rfl

theorem rowScatter_lands_iff (idx : IVec ⟨2, ![E, 1]⟩ w) (e : Fin E) (d' : Fin D) (n : Fin N) (d : Fin D) :
    (rowScatter N E D wf).resultIdx? (ix2 e d') idx = some (ix2 n d)
      ↔ (idx (ix2 e 0)).toInt = (n.val : ℤ) ∧ d' = d := by
  have h0 := rowScatter_start0 wf idx e d'
  have h1 := rowScatter_start1 wf idx e d'
  have w0 := rowScatter_window0 wf e d'
  have w1 := rowScatter_window1 wf e d'
  unfold ScatterDims.resultIdx?
  split
  · rename_i h
    rw [Option.some.injEq]
    constructor
    · intro hf
      have e0 := congrArg Fin.val (congrFun hf 0)
      have e1 := congrArg Fin.val (congrFun hf 1)
      have c0 := h 0
      simp only [h0, w0] at e0 c0
      simp only [h1, w1] at e1
      refine ⟨?_, Fin.ext ?_⟩
      · have : ((idx (ix2 e 0)).toInt + ((0 : ℕ) : ℤ)).toNat = n.val := e0
        omega
      · have : ((0 : ℤ) + (d'.val : ℤ)).toNat = d.val := e1
        omega
    · rintro ⟨ht, rfl⟩
      funext a
      refine Fin.ext ?_
      match a with
      | ⟨0, _⟩ =>
        show ((rowScatter N E D wf).start (ix2 e d') idx 0 + ((rowScatter N E D wf).window (ix2 e d') 0 : ℤ)).toNat = n.val
        rw [h0, w0, ht]; simp
      | ⟨1, _⟩ =>
        show ((rowScatter N E D wf).start (ix2 e d') idx 1 + ((rowScatter N E D wf).window (ix2 e d') 1 : ℤ)).toNat = d'.val
        rw [h1, w1]; simp
  · rename_i h
    constructor
    · intro hf; exact absurd hf (by simp)
    · rintro ⟨ht, rfl⟩
      exfalso
      apply h
      intro a
      match a with
      | ⟨0, _⟩ =>
        show 0 ≤ (rowScatter N E D wf).start (ix2 e d') idx 0 + ((rowScatter N E D wf).window (ix2 e d') 0 : ℤ)
          ∧ (rowScatter N E D wf).start (ix2 e d') idx 0 + ((rowScatter N E D wf).window (ix2 e d') 0 : ℤ) < (N : ℤ)
        rw [h0, w0, ht]
        have := n.isLt
        constructor <;> simp <;> omega
      | ⟨1, _⟩ =>
        show 0 ≤ (rowScatter N E D wf).start (ix2 e d') idx 1 + ((rowScatter N E D wf).window (ix2 e d') 1 : ℤ)
          ∧ (rowScatter N E D wf).start (ix2 e d') idx 1 + ((rowScatter N E D wf).window (ix2 e d') 1 : ℤ) < (D : ℤ)
        rw [h1, w1]
        have := d'.isLt
        constructor <;> simp <;> omega

theorem rowScatterAdd_apply {φ : FTy} (x : FVec Ideal ⟨2, ![N, D]⟩ φ) (idx : IVec ⟨2, ![E, 1]⟩ w)
    (upd : FVec Ideal ⟨2, ![E, D]⟩ φ) (n : Fin N) (d : Fin D) :
    Host.scatterAdd (F := Ideal) (rowScatter N E D wf) x idx upd (ix2 n d)
      = x (ix2 n d) + ∑ e : Fin E, if (idx (ix2 e 0)).toInt = (n.val : ℤ) then upd (ix2 e d) else 0 := by
  show Ideal.hostScatterAdd (rowScatter N E D wf) x idx upd (ix2 n d) = _
  unfold Ideal.hostScatterAdd
  congr 1
  rw [Finset.sum_filter, sum_idx2]
  refine Finset.sum_congr rfl fun e _ => ?_
  simp only [rowScatter_lands_iff wf idx e _ n d]
  by_cases ht : (idx (ix2 e 0)).toInt = (n.val : ℤ)
  · simp only [ht, true_and, if_true]
    rw [Finset.sum_ite_eq' Finset.univ d (fun d' => upd (ix2 e d'))]
    simp
  · simp only [ht, false_and, if_false, Finset.sum_const_zero]

end RowScatter

theorem toInt_eq_toNat_of_nonneg (b : BitVec 32) (h0 : 0 ≤ b.toInt) : b.toInt = (b.toNat : ℤ) := by
  have hl := b.isLt
  have hc := BitVec.toInt_eq_toNat_cond b
  split at hc <;> omega

theorem toInt_eq_iff_toNat_eq (b : BitVec 32) (n : ℕ) (hn : n < 50000) : b.toInt = (n : ℤ) ↔ b.toNat = n := by
  have hl := b.isLt
  have hc := BitVec.toInt_eq_toNat_cond b
  split at hc <;> omega

theorem select_slt_zero (a b : BitVec 32) (h : 0 ≤ a.toInt) :
    Scalar.select (IntOp.cmpi .slt a 0#32) b a = a := by
  have hz : (0#32 : BitVec 32).toInt = 0 := by simp
  have hs : a.slt 0#32 = false := by
    unfold BitVec.slt
    rw [hz]
    exact decide_eq_false (not_lt.mpr h)
  have hc : IntOp.cmpi .slt a 0#32 = 0#1 := by
    show BitVec.ofBool (a.slt 0#32) = 0#1
    rw [hs]
    rfl
  rw [hc]
  exact select_zero _ _

def normOf (idx : IVec S600000 32) : S50000.Idx → EReal :=
  Host.powf (F := Ideal) (φ := .f32)
    (maximumf (broadcastInDim S50000 ![] bcast_S_S50000 (id (constant (F := Ideal) S_ .f32 0x3F800000#32)))
      (Host.scatterAdd (F := Ideal) scatter_S50000_S600000x1_S600000_n_0_0_1
        (broadcastInDim S50000 ![] bcast_S_S50000 (constant (F := Ideal) S_ .f32 0x00000000#32))
        (broadcastInDim S600000x1 ![0] bcast_S600000_S600000x1_0 idx)
        (broadcastInDim S600000 ![] bcast_S_S600000 (constant (F := Ideal) S_ .f32 0x3F800000#32))))
    (broadcastInDim S50000 ![] bcast_S_S50000 (constant (F := Ideal) S_ .f32 0xBF000000#32))

theorem gather1_rec : gather_S50000x128_S600000x1_S600000x128_1_0_n_n_0_1_1128
    = rowGather 50000 600000 128 gather_S50000x128_S600000x1_S600000x128_1_0_n_n_0_1_1128_wf := rfl
theorem gather2_rec : gather_S50000x64_S600000x1_S600000x64_1_0_n_n_0_1_164
    = rowGather 50000 600000 64 gather_S50000x64_S600000x1_S600000x64_1_0_n_n_0_1_164_wf := rfl
theorem scatter1_rec : scatter_S50000x128_S600000x1_S600000x128_1_0_0_1
    = rowScatter 50000 600000 128 scatter_S50000x128_S600000x1_S600000x128_1_0_0_1_wf := rfl
theorem scatter2_rec : scatter_S50000x64_S600000x1_S600000x64_1_0_0_1
    = rowScatter 50000 600000 64 scatter_S50000x64_S600000x1_S600000x64_1_0_0_1_wf := rfl

section Stages
variable (x : Vec Ideal S50000x128 .f32) (w1 : Vec Ideal S128x128 .f32) (b1 : Vec Ideal S128 .f32) (w2 : Vec Ideal S128x64 .f32) (b2 : Vec Ideal S64 .f32)
  (es ed : IVec S600000 32)

theorem src1_apply (n : Fin 50000) (k : Fin 128) : val_main_v14 (F := Ideal) es (ix2 n k) = normOf es (ix1 n) := by
  rw [val_main_v14_apply, val_main_v13_apply]
  show val_main_v9 (F := Ideal) es _ = val_main_v9 (F := Ideal) es (ix1 n)
  exact congrArg _ (funext fun a => by match a with | ⟨0, _⟩ => rfl)

theorem src2_apply (n : Fin 50000) (k : Fin 128) : val_main_v35 (F := Ideal) es (ix2 n k) = normOf es (ix1 n) := by
  rw [val_main_v35_apply, val_main_v34_apply]
  show val_main_v9 (F := Ideal) es _ = val_main_v9 (F := Ideal) es (ix1 n)
  exact congrArg _ (funext fun a => by match a with | ⟨0, _⟩ => rfl)

theorem dst1_apply (n : Fin 50000) (k : Fin 128) : val_main_v28 (F := Ideal) ed (ix2 n k) = normOf ed (ix1 n) := by
  rw [val_main_v28_apply, val_main_v27_apply]
  show val_main_v12 (F := Ideal) ed _ = val_main_v12 (F := Ideal) ed (ix1 n)
  exact congrArg _ (funext fun a => by match a with | ⟨0, _⟩ => rfl)

theorem dst2_apply (n : Fin 50000) (d : Fin 64) : val_main_v49 (F := Ideal) ed (ix2 n d) = normOf ed (ix1 n) := by
  rw [val_main_v49_apply, val_main_v48_apply]
  show val_main_v12 (F := Ideal) ed _ = val_main_v12 (F := Ideal) ed (ix1 n)
  exact congrArg _ (funext fun a => by match a with | ⟨0, _⟩ => rfl)

theorem bias1_apply (n : Fin 50000) (k : Fin 128) : val_main_v31 (F := Ideal) b1 (ix2 n k) = b1 (ix1 k) := by
  rw [val_main_v31_apply, val_main_v30_apply]
  exact congrArg b1 (funext fun a => by match a with | ⟨0, _⟩ => rfl)

theorem bias2_apply (n : Fin 50000) (d : Fin 64) : val_main_v52 (F := Ideal) b2 (ix2 n d) = b2 (ix1 d) := by
  rw [val_main_v52_apply, val_main_v51_apply]
  exact congrArg b2 (funext fun a => by match a with | ⟨0, _⟩ => rfl)

theorem zero1_apply (i : S50000x128.Idx) : val_main_v24 (F := Ideal) i = 0 := by
  rw [val_main_v24_apply, val_main_cst_7_apply]
  exact Ideal.ofBits_zero_f32

theorem zero2_apply (i : S50000x64.Idx) : val_main_v45 (F := Ideal) i = 0 := by
  rw [val_main_v45_apply, val_main_cst_10_apply]
  exact Ideal.ofBits_zero_f32

theorem relu0_apply (i : S50000x128.Idx) : val_main_call2_v0 (F := Ideal) i = 0 := by
  rw [val_main_call2_v0_apply, val_main_call2_cst_apply]
  exact Ideal.ofBits_zero_f32

theorem srcIdx1 (e : Fin 600000) (h : 0 ≤ (es (ix1 e)).toInt) :
    val_main_v22 (F := Ideal) es (ix2 e 0) = es (ix1 e) := by
  rw [val_main_v22_apply]
  have hi : idx_main_v22 (ix2 e (0 : Fin 1)) = ix1 e := funext fun a => by match a with | ⟨0, _⟩ => rfl
  rw [hi, val_main_v21_apply, val_main_v18_apply, val_main_v17_apply, val_main_c_apply]
  exact select_slt_zero _ _ h

theorem srcIdx2 (e : Fin 600000) (h : 0 ≤ (es (ix1 e)).toInt) :
    val_main_v43 (F := Ideal) es (ix2 e 0) = es (ix1 e) := by
  rw [val_main_v43_apply]
  have hi : idx_main_v43 (ix2 e (0 : Fin 1)) = ix1 e := funext fun a => by match a with | ⟨0, _⟩ => rfl
  rw [hi, val_main_v42_apply, val_main_v39_apply, val_main_v38_apply, val_main_c_8_apply]
  exact select_slt_zero _ _ h

theorem dstIdx1 (e : Fin 600000) : val_main_v25 (F := Ideal) ed (ix2 e 0) = ed (ix1 e) := by
  rw [val_main_v25_apply]
  exact congrArg ed (funext fun a => by match a with | ⟨0, _⟩ => rfl)

theorem dstIdx2 (e : Fin 600000) : val_main_v46 (F := Ideal) ed (ix2 e 0) = ed (ix1 e) := by
  rw [val_main_v46_apply]
  exact congrArg ed (funext fun a => by match a with | ⟨0, _⟩ => rfl)

theorem lin1 (n : Fin 50000) (k : Fin 128) :
    val_main_v16 (F := Ideal) x w1 es (ix2 n k) = Cert.Spec.lin (fun n k => x (ix2 n k)) (fun n => normOf es (ix1 n)) (fun k d => w1 (ix2 k d)) n k := by
  rw [val_main_v16_apply]
  unfold Cert.Spec.lin
  refine Finset.sum_congr rfl fun j _ => ?_
  have hl : lidx_main_v16 (ix2 n k) j = ix2 n j :=
    funext fun a => by match a with | ⟨0, _⟩ => rfl | ⟨1, _⟩ => rfl
  have hr : ridx_main_v16 (ix2 n k) j = ix2 j k :=
    funext fun a => by match a with | ⟨0, _⟩ => rfl | ⟨1, _⟩ => rfl
  rw [hl, hr, val_main_v15_apply, src1_apply]
  rfl

theorem gat1 (hes : ∀ e : Fin 600000, 0 ≤ (es (ix1 e)).toInt ∧ (es (ix1 e)).toInt < 50000) (e : Fin 600000) (k : Fin 128) :
    val_main_v23 (F := Ideal) x w1 es (ix2 e k)
      = Cert.Spec.gat (fun n k => val_main_v16 (F := Ideal) x w1 es (ix2 n k)) (fun e => es (ix1 e)) e k := by
  obtain ⟨h0, h1⟩ := hes e
  have hidx := srcIdx1 es e h0
  have hnat := toInt_eq_toNat_of_nonneg _ h0
  have hlt : (es (ix1 e)).toNat < 50000 := by omega
  unfold val_main_v23
  rw [gather1_rec]
  refine (rowGather_apply _ (by norm_num) _ _ e k).trans ?_
  unfold Cert.Spec.gat
  rw [dif_pos hlt]
  refine congrArg (val_main_v16 (F := Ideal) x w1 es) (funext fun a => ?_)
  match a with
  | ⟨0, _⟩ =>
    refine Fin.ext ?_
    show min (val_main_v22 (F := Ideal) es (ix2 e 0)).toInt.toNat (50000 - 1) = (es (ix1 e)).toNat
    rw [hidx]
    omega
  | ⟨1, _⟩ => rfl

theorem sca1 (n : Fin 50000) (k : Fin 128) :
    val_main_v26 (F := Ideal) x w1 es ed (ix2 n k)
      = Cert.Spec.sca (fun e k => val_main_v23 (F := Ideal) x w1 es (ix2 e k)) (fun e => ed (ix1 e)) n k := by
  unfold val_main_v26
  rw [scatter1_rec]
  refine (rowScatterAdd_apply _ _ _ _ n k).trans ?_
  rw [zero1_apply, zero_add]
  unfold Cert.Spec.sca
  refine Finset.sum_congr rfl fun e _ => ?_
  rw [dstIdx1]
  simp only [toInt_eq_iff_toNat_eq _ n.val n.isLt]

theorem conv1 (hes : ∀ e : Fin 600000, 0 ≤ (es (ix1 e)).toInt ∧ (es (ix1 e)).toInt < 50000) (n : Fin 50000) (k : Fin 128) :
    val_main_v32 (F := Ideal) x w1 b1 es ed (ix2 n k)
      = Cert.Spec.conv (fun n k => x (ix2 n k)) (fun n => normOf es (ix1 n)) (fun n => normOf ed (ix1 n)) (fun k d => w1 (ix2 k d)) (fun d => b1 (ix1 d)) (fun e => es (ix1 e)) (fun e => ed (ix1 e)) n k := by
  rw [val_main_v32_apply, val_main_v29_apply, sca1, dst1_apply, bias1_apply]
  have hg : (fun e k => val_main_v23 (F := Ideal) x w1 es (ix2 e k))
      = Cert.Spec.gat (Cert.Spec.lin (fun n k => x (ix2 n k)) (fun n => normOf es (ix1 n)) (fun k d => w1 (ix2 k d))) (fun e => es (ix1 e)) := by
    funext e k
    rw [gat1 x w1 es hes e k]
    exact congrArg (fun h => Cert.Spec.gat h (fun e => es (ix1 e)) e k) (funext fun n => funext fun k => lin1 x w1 es n k)
  rw [hg]
  rfl

theorem hid1 (hes : ∀ e : Fin 600000, 0 ≤ (es (ix1 e)).toInt ∧ (es (ix1 e)).toInt < 50000) (n : Fin 50000) (k : Fin 128) :
    val_main_v33 (F := Ideal) x w1 b1 es ed (ix2 n k)
      = Cert.Spec.hid (fun n k => x (ix2 n k)) (fun n => normOf es (ix1 n)) (fun n => normOf ed (ix1 n)) (fun k d => w1 (ix2 k d)) (fun d => b1 (ix1 d)) (fun e => es (ix1 e)) (fun e => ed (ix1 e)) n k := by
  rw [val_main_v33_apply, conv1 x w1 b1 es ed hes, relu0_apply]
  rfl

theorem lin2 (n : Fin 50000) (d : Fin 64) :
    val_main_v37 (F := Ideal) x w1 b1 w2 es ed (ix2 n d) = Cert.Spec.lin (fun n k => val_main_v33 (F := Ideal) x w1 b1 es ed (ix2 n k)) (fun n => normOf es (ix1 n)) (fun k d => w2 (ix2 k d)) n d := by
  rw [val_main_v37_apply]
  unfold Cert.Spec.lin
  refine Finset.sum_congr rfl fun j _ => ?_
  have hl : lidx_main_v37 (ix2 n d) j = ix2 n j :=
    funext fun a => by match a with | ⟨0, _⟩ => rfl | ⟨1, _⟩ => rfl
  have hr : ridx_main_v37 (ix2 n d) j = ix2 j d :=
    funext fun a => by match a with | ⟨0, _⟩ => rfl | ⟨1, _⟩ => rfl
  rw [hl, hr, val_main_v36_apply, src2_apply]
  rfl

theorem gat2 (hes : ∀ e : Fin 600000, 0 ≤ (es (ix1 e)).toInt ∧ (es (ix1 e)).toInt < 50000) (e : Fin 600000) (d : Fin 64) :
    val_main_v44 (F := Ideal) x w1 b1 w2 es ed (ix2 e d)
      = Cert.Spec.gat (fun n d => val_main_v37 (F := Ideal) x w1 b1 w2 es ed (ix2 n d)) (fun e => es (ix1 e)) e d := by
  obtain ⟨h0, h1⟩ := hes e
  have hidx := srcIdx2 es e h0
  have hnat := toInt_eq_toNat_of_nonneg _ h0
  have hlt : (es (ix1 e)).toNat < 50000 := by omega
  unfold val_main_v44
  rw [gather2_rec]
  refine (rowGather_apply _ (by norm_num) _ _ e d).trans ?_
  unfold Cert.Spec.gat
  rw [dif_pos hlt]
  refine congrArg (val_main_v37 (F := Ideal) x w1 b1 w2 es ed) (funext fun a => ?_)
  match a with
  | ⟨0, _⟩ =>
    refine Fin.ext ?_
    show min (val_main_v43 (F := Ideal) es (ix2 e 0)).toInt.toNat (50000 - 1) = (es (ix1 e)).toNat
    rw [hidx]
    omega
  | ⟨1, _⟩ => rfl

theorem sca2 (n : Fin 50000) (d : Fin 64) :
    val_main_v47 (F := Ideal) x w1 b1 w2 es ed (ix2 n d)
      = Cert.Spec.sca (fun e d => val_main_v44 (F := Ideal) x w1 b1 w2 es ed (ix2 e d)) (fun e => ed (ix1 e)) n d := by
  unfold val_main_v47
  rw [scatter2_rec]
  refine (rowScatterAdd_apply _ _ _ _ n d).trans ?_
  rw [zero2_apply, zero_add]
  unfold Cert.Spec.sca
  refine Finset.sum_congr rfl fun e _ => ?_
  rw [dstIdx2]
  simp only [toInt_eq_iff_toNat_eq _ n.val n.isLt]

theorem ref_out_apply (hes : ∀ e : Fin 600000, 0 ≤ (es (ix1 e)).toInt ∧ (es (ix1 e)).toInt < 50000) (n : Fin 50000) (d : Fin 64) :
    val_main_v53 (F := Ideal) x w1 b1 w2 b2 es ed (ix2 n d)
      = Cert.Spec.out (fun n k => x (ix2 n k)) (fun n => normOf es (ix1 n)) (fun n => normOf ed (ix1 n)) (fun k d => w1 (ix2 k d)) (fun d => b1 (ix1 d)) (fun k d => w2 (ix2 k d)) (fun d => b2 (ix1 d)) (fun e => es (ix1 e)) (fun e => ed (ix1 e)) n d := by
  rw [val_main_v53_apply, val_main_v50_apply, sca2, dst2_apply, bias2_apply]
  have hh : (fun n k => val_main_v33 (F := Ideal) x w1 b1 es ed (ix2 n k)) = (Cert.Spec.hid (fun n k => x (ix2 n k)) (fun n => normOf es (ix1 n)) (fun n => normOf ed (ix1 n)) (fun k d => w1 (ix2 k d)) (fun d => b1 (ix1 d)) (fun e => es (ix1 e)) (fun e => ed (ix1 e))) :=
    funext fun n => funext fun k => hid1 x w1 b1 es ed hes n k
  have hg : (fun e d => val_main_v44 (F := Ideal) x w1 b1 w2 es ed (ix2 e d))
      = Cert.Spec.gat (Cert.Spec.lin (Cert.Spec.hid (fun n k => x (ix2 n k)) (fun n => normOf es (ix1 n)) (fun n => normOf ed (ix1 n)) (fun k d => w1 (ix2 k d)) (fun d => b1 (ix1 d)) (fun e => es (ix1 e)) (fun e => ed (ix1 e))) (fun n => normOf es (ix1 n)) (fun k d => w2 (ix2 k d))) (fun e => es (ix1 e)) := by
    funext e d
    rw [gat2 x w1 b1 w2 es ed hes e d]
    refine congrArg (fun h => Cert.Spec.gat h (fun e => es (ix1 e)) e d) (funext fun n => funext fun d => ?_)
    rw [lin2, hh]
  rw [hg]
  rfl

end Stages

end Cert.ReferenceIdeal.RefValue

end
-- ==== Proof.NormAgree.lean ====
import proofs.«411707_j25580825215441_1_alg».proof.Proof.Val.SideBuffers
import proofs.«411707_j25580825215441_1_alg».proof.Proof.Ref.RefValue
import proofs.«411707_j25580825215441_1_alg».proof.Proof.Gen.KernelIdeal
import proofs.«411707_j25580825215441_1_alg».proof.Proof.Gen.ReferenceIdeal

noncomputable section

namespace Cert.Proof

open Idealize.ShloMosaic

attribute [local instance] Cert.KernelIdeal.Gen.facts Cert.ReferenceIdeal.Gen.facts

theorem norm_agree (idx : IVec Cert.KernelIdeal.S600000 32) :
    Cert.KernelIdeal.Val.normK idx = Cert.ReferenceIdeal.RefValue.normOf idx := rfl

end Cert.Proof

end
-- ==== Proof.PreFacts.lean ====
import proofs.«411707_j25580825215441_1_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Proof.PreFacts

open Idealize.ShloMosaic Idealize.ShloMosaic.ValueIdx Cert.Pre_finite_inputs

instance subsingleton_scalar_idx : Subsingleton S_.Idx := ⟨fun a b => funext fun d => d.elim0⟩

theorem range_of_words (w : BitVec 32) (hge : IntOp.cmpi .sge w 0#32 = 1#1) (hlt : IntOp.cmpi .slt w 50000#32 = 1#1) :
    0 ≤ w.toInt ∧ w.toInt < 50000 := by
  rw [IntOp.cmpi_sge] at hge
  rw [IntOp.cmpi_slt] at hlt
  have h0 : (0#32 : BitVec 32).toInt = 0 := by decide
  have h5 : (50000#32 : BitVec 32).toInt = 50000 := by decide
  rw [h0] at hge
  rw [h5] at hlt
  exact ⟨hge, hlt⟩

theorem src_in_range [Cert.Pre_finite_inputs.Facts] (a0 : FVec Ideal S50000x128 .f32) (a1 : FVec Ideal S128x128 .f32)
    (a2 : FVec Ideal S128 .f32) (a3 : FVec Ideal S128x64 .f32) (a4 : FVec Ideal S64 .f32) (a5 a6 : IVec S600000 32)
    (h : Cert.Pre_finite_inputs.fn (F := Ideal) a0 a1 a2 a3 a4 a5 a6 = fun _ => 1#1) (e : Fin 600000) :
    0 ≤ (a5 (ix1 e)).toInt ∧ (a5 (ix1 e)).toInt < 50000 := by
  have h0 := congrFun h ix0
  dsimp only [Cert.Pre_finite_inputs.fn, Cert.Pre_finite_inputs.fn_part1, andi] at h0

  obtain ⟨h1, hlt⟩ := IntOp.andi_eq_one.1 h0
  obtain ⟨-, hge⟩ := IntOp.andi_eq_one.1 h1
  have g := Host.reduce_andi_all _ _ _ _ _ hge (ix1 e)
  have l := Host.reduce_andi_all _ _ _ _ _ hlt (ix1 e)
  dsimp only [cmpi, broadcastInDim, constantI] at g l
  exact range_of_words _ g l

end Cert.Proof.PreFacts

end
-- ==== Proof.lean ====
/- A two-layer graph convolution against its array-program reference: over the extended reals both give `Cert.Spec.out` of the
   shared arguments wherever every source index names a node, which the precondition says. -/
import proofs.«411707_j25580825215441_1_alg».proof.Defs
import proofs.«411707_j25580825215441_1_alg».proof.Proof.Gen.Kernel
import proofs.«411707_j25580825215441_1_alg».proof.Proof.Gen.KernelIdeal
import proofs.«411707_j25580825215441_1_alg».proof.Proof.Gen.ReferenceIdeal
import proofs.«411707_j25580825215441_1_alg».proof.Proof.Gen.Pre_finite_inputs
import proofs.«411707_j25580825215441_1_alg».proof.Proof.Val.KernelValue
import proofs.«411707_j25580825215441_1_alg».proof.Proof.Ref.RefValue
import proofs.«411707_j25580825215441_1_alg».proof.Proof.NormAgree
import proofs.«411707_j25580825215441_1_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_finite_inputs.Gen.facts

variable {F : FTy → Type} [FloatOps F]

/-! The two printed kernel programs are one text: the body tables agree label by label, so the one run through the six regions
    serves both programs' frames. -/

set_option maxHeartbeats 1000000 in
theorem defs₀_same : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | 0, (t, s) => rfl
  | 1, (t, s) => rfl
  | 2, (t, s) => rfl
  | 3, (t, s) => rfl
  | 4, (t, s) => rfl
  | 5, (t, s) => rfl
  | ⟨_ + 6, h⟩, _ => exact absurd h (Nat.not_lt.2 (Nat.le_add_left _ _))

set_option maxHeartbeats 1000000 in
theorem frame_k : Cert.frame_Kernel := fun m ρ _ => by
  unfold Cert.Kernel.defs
  rw [defs₀_same]
  exact (θ_run Cert.KernelIdeal.defs _ _).mono (fun _ h c => (h c).2) (Cert.KernelIdeal.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's output of the shared arguments. -/
theorem algebraic : Cert.algebraic_KernelIdeal_ReferenceIdeal := by
  intro m ρ m' ρ' hpre hagree
  refine ⟨fun c => Cert.KernelIdeal.Hand.o13 (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  have hes : ∀ e : Fin 600000, 0 ≤ (m' ((c.tc : Thread Cert.ReferenceIdeal.nD Cert.ReferenceIdeal.τ).loc Cert.ReferenceIdeal.main_arg5) (ix1 e)).toInt
      ∧ (m' ((c.tc : Thread Cert.ReferenceIdeal.nD Cert.ReferenceIdeal.τ).loc Cert.ReferenceIdeal.main_arg5) (ix1 e)).toInt < 50000 := fun e => by
    rw [h5]; exact Cert.Proof.PreFacts.src_in_range _ _ _ _ _ _ _ (hpre c) e
  funext idx
  obtain ⟨n, d, rfl⟩ : ∃ (n : Fin 50000) (d : Fin 64), idx = ix2 n d := ⟨idx 0, idx 1, eq_ix2 idx⟩
  refine (congrFun (Cert.ReferenceIdeal.Read.val_main_v53_eq m' c) (ix2 n d)).trans ?_
  rw [Cert.ReferenceIdeal.RefValue.ref_out_apply _ _ _ _ _ _ _ hes n d, h0, h1, h2, h3, h4, h5, h6]
  refine Eq.trans ?_ (Cert.KernelIdeal.Val.o13_apply m c n d).symm
  simp only [← norm_agree]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
